-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S1x128 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S1x128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x256 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S1x128 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S256x128 : Shape := ⟨2, ![256, 128]⟩
abbrev S2 : Shape := ⟨1, ![2]⟩
abbrev S6000x256 : Shape := ⟨2, ![6000, 256]⟩
abbrev S6000x128 : Shape := ⟨2, ![6000, 128]⟩

abbrev nBuf : Space → Nat
  | .hbm => 101
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S1x600000, .i32⟩
  | .hbm, ⟨24, _⟩ => ⟨S600000, .i32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x256, .f32⟩
  | .hbm, ⟨35, _⟩ => ⟨S600000x256, .bf16⟩
  | .hbm, ⟨36, _⟩ => ⟨S256x128, .f32⟩
  | .hbm, ⟨37, _⟩ => ⟨S256x128, .bf16⟩
  | .hbm, ⟨38, _⟩ => ⟨S1x128, .f32⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S_, .f32⟩
  | .hbm, ⟨43, _⟩ => ⟨S128x128, .f32⟩
  | .hbm, ⟨44, _⟩ => ⟨S128, .f32⟩
  | .hbm, ⟨45, _⟩ => ⟨S_, .i32⟩
  | .hbm, ⟨46, _⟩ => ⟨S1, .i32⟩
  | .hbm, ⟨47, _⟩ => ⟨S128x128, .f32⟩
  | .hbm, ⟨48, _⟩ => ⟨S128x128, .bf16⟩
  | .hbm, ⟨49, _⟩ => ⟨S_, .f32⟩
  | .hbm, ⟨50, _⟩ => ⟨S1x128, .f32⟩
  | .hbm, ⟨51, _⟩ => ⟨S_, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S1x128, .f32⟩
  | .hbm, ⟨58, _⟩ => ⟨S600000x128, .bf16⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S600000x128, .bf16⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S_, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S600000x128, .f32⟩
  | .hbm, ⟨99, _⟩ => ⟨S600000x1, .f32⟩
  | .hbm, ⟨100, _⟩ => ⟨S600000, .f32⟩
  | .local _ .vmem, ⟨0, _⟩ => ⟨S6000x256, .bf16⟩
  | .local _ .vmem, ⟨1, _⟩ => ⟨S6000x256, .bf16⟩
  | .local _ .vmem, ⟨2, _⟩ => ⟨S256x128, .bf16⟩
  | .local _ .vmem, ⟨3, _⟩ => ⟨S1x128, .f32⟩
  | .local _ .vmem, ⟨4, _⟩ => ⟨S6000x128, .bf16⟩
  | .local _ .vmem, ⟨5, _⟩ => ⟨S6000x128, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S6000x128, .bf16⟩
  | .local _ .vmem, ⟨11, _⟩ => ⟨S6000x128, .bf16⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S6000x128, .bf16⟩
  | .local _ .vmem, ⟨17, _⟩ => ⟨S6000x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S6000x128, .bf16⟩
  | .local _ .vmem, ⟨23, _⟩ => ⟨S6000x128, .bf16⟩
  | .local _ .vmem, ⟨24, _⟩ => ⟨S1x128, .f32⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S6000x128, .f32⟩
  | .local _ .vmem, ⟨29, _⟩ => ⟨S6000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52_0 : Ref sig .tc := ⟨.hbm, 78, rfl⟩
abbrev main_v52_1 : Ref sig .tc := ⟨.hbm, 79, rfl⟩
abbrev main_v52_2 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v29 : BitVec 1 := Scalar.cmpi .eq arg0 c99_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![100], ![false]⟩

def k1_cond2 (i : grid1.Coords) : BitVec 1 :=
  let arg0 : BitVec 32 := BitVec.ofNat 32 (i 0).val
  let c99_i32 : BitVec 32 := 99#32
  let v41 : BitVec 1 := Scalar.cmpi .eq arg0 c99_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S6000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  concatenates_S600000x128_S600000x128_S600000x256_d1 : Shape.Concatenates [S600000x128, S600000x128] S600000x256 1
  bitsLt_bf16_f32 : FTy.bits .bf16 < FTy.bits .f32
  transposes_S128x256_S256x128_1_0 : S128x256.Transposes [1, 0] S256x128
  shapeCasts_S128_S1x128 : S128.ShapeCasts S1x128
  transposes_S128x128_S128x128_1_0 : S128x128.Transposes [1, 0] S128x128
  bcast_S_S128x128 : S_.BroadcastsInDim S128x128 (![] : Fin 0 → Fin S128x128.rank)
  shapeCasts_S1x128_S128 : S1x128.ShapeCasts S128
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6000x256_S6000x256_0_0 : ∀ a, (![0, 0] : Fin 2 → Nat) a + S6000x256.size a ≤ S6000x256.size a
  h_S6000x256 : 0 < S6000x256.numel
  shapeCasts_S6000x256_S6000x256 : S6000x256.ShapeCasts S6000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S6000x128 : S1x128.Broadcasts S6000x128
  reduces_S6000x128_S128 : S6000x128.Reduces [0] S128
  inb_S6000x128_S6000x128_0_0 : ∀ a, (![0, 0] : Fin 2 → Nat) a + S6000x128.size a ≤ S6000x128.size a
  h_S6000x128 : 0 < S6000x128.numel
  packedbf16_S6000x128_S6000x128_0_0 : (Rect.unit (s := S6000x128) ![0, 0] S6000x128.size inb_S6000x128_S6000x128_0_0).PackedRows (EltTy.packing .bf16)
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S600000x128_S600000x1_0_0 : S600000x128.Slices ![0, 0] S600000x1
  shapeCasts_S600000x1_S600000 : S600000x1.ShapeCasts S600000
  gather_S50000x128_S600000x1_S600000x128_1_0_n_n_0_1_1128_wf : GatherDims.WF S50000x128 S600000x1 S600000x128 [1] [0] [] [0] [] 1 ![1, 128]
  scatter_S128x128_S1_S128_0_1_1_0_wf : ScatterDims.WF S128x128 S1 S128 [0] [1] [1] 0
  scatter_S1x128_S2_S__n_01_01_0_wf : ScatterDims.WF S1x128 S2 S_ [] [0, 1] [0, 1] 0
  dot_S6000x256_S256x128_S6000x128_1_0_0_1_n_n_wf : DotDims.WF S6000x256 S256x128 S6000x128 [1] [0] [0] [1] [] []
  dot_S6000x128_S128x128_S6000x128_1_0_0_1_n_n_wf : DotDims.WF S6000x128 S128x128 S6000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x256.size a ≤ S600000x256.size a
  hwx0_0 : ∀ i : grid0.Coords, EltTy.bits .bf16 = 32 ∨ (Rect.block (s := S600000x256) S6000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .bf16 = 32 ∨ (Rect.block (s := S600000x128) S6000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .bf16 = 32 ∨ (Rect.block (s := S600000x128) S6000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x128.size a ≤ S600000x128.size a
  hwx1_5 : ∀ i : grid1.Coords, EltTy.bits .bf16 = 32 ∨ (Rect.block (s := S600000x128) S6000x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .bf16 = 32 ∨ (Rect.block (s := S600000x128) S6000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6000x128.size a ≤ S600000x128.size a
  hwx2_5 : ∀ i : grid2.Coords, EltTy.bits .f32 = 32 ∨ (Rect.block (s := S600000x128) S6000x128.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf

abbrev win0_0 : Pipeline.Window sig grid0 :=
  Pipeline.Window.ofSpec (Memref.whole main_v19) S6000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37_0) S6000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v37_0) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52_0) S6000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v52_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v52_0) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S6000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x600000, .i32⟩
  | 2 => ⟨S128x256, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x128, .f32⟩
  | 11 => ⟨S1, .f32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S1x600000, .i32⟩
  | 24 => ⟨S600000, .i32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S600000x256, .f32⟩
  | 35 => ⟨S600000x128, .f32⟩
  | 36 => ⟨S1x128, .f32⟩
  | 37 => ⟨S600000x128, .f32⟩
  | 38 => ⟨S600000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S600000x128, .f32⟩
  | 52 => ⟨S600000x128, .f32⟩
  | 53 => ⟨S600000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S600000x128, .f32⟩
  | 69 => ⟨S600000x128, .f32⟩
  | 70 => ⟨S_, .f32⟩
  | 71 => ⟨S128, .f32⟩
  | 72 => ⟨S128, .f32⟩
  | 73 => ⟨S128, .f32⟩
  | 74 => ⟨S1x128, .f32⟩
  | 75 => ⟨S600000x128, .f32⟩
  | 76 => ⟨S600000x128, .f32⟩
  | 77 => ⟨S1x128, .f32⟩
  | 78 => ⟨S600000x128, .f32⟩
  | 79 => ⟨S600000x128, .f32⟩
  | 80 => ⟨S1x128, .f32⟩
  | 81 => ⟨S600000x128, .f32⟩
  | 82 => ⟨S600000x128, .f32⟩
  | 83 => ⟨S_, .f32⟩
  | 84 => ⟨S600000x128, .f32⟩
  | 85 => ⟨S600000x128, .f32⟩
  | 86 => ⟨S600000x128, .f32⟩
  | 87 => ⟨S1x128, .f32⟩
  | 88 => ⟨S600000x128, .f32⟩
  | 89 => ⟨S600000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S600000x128, .f32⟩
  | 103 => ⟨S600000x128, .f32⟩
  | 104 => ⟨S600000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S600000x128, .f32⟩
  | 120 => ⟨S600000x128, .f32⟩
  | 121 => ⟨S_, .f32⟩
  | 122 => ⟨S128, .f32⟩
  | 123 => ⟨S128, .f32⟩
  | 124 => ⟨S128, .f32⟩
  | 125 => ⟨S1x128, .f32⟩
  | 126 => ⟨S600000x128, .f32⟩
  | 127 => ⟨S600000x128, .f32⟩
  | _ => ⟨S50000x128, .f32⟩

abbrev hbmTy0_1 (i : Nat) : BufTy := match i % 128 with
  | 0 => ⟨S1x128, .f32⟩
  | 1 => ⟨S600000x128, .f32⟩
  | 2 => ⟨S600000x128, .f32⟩
  | 3 => ⟨S1x128, .f32⟩
  | 4 => ⟨S600000x128, .f32⟩
  | 5 => ⟨S600000x128, .f32⟩
  | 6 => ⟨S_, .f32⟩
  | 7 => ⟨S600000x128, .f32⟩
  | 8 => ⟨S600000x128, .f32⟩
  | 9 => ⟨S600000x1, .f32⟩
  | 10 => ⟨S1x1, .f32⟩
  | 11 => ⟨S600000x1, .f32⟩
  | 12 => ⟨S600000x1, .f32⟩
  | 13 => ⟨S600000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_5 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_call1_cst : Ref sig .tc := ⟨.hbm, 83, rfl⟩
abbrev main_call1_v0 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_6 : Ref sig .tc := ⟨.hbm, 90, rfl⟩
abbrev main_v47 : Ref sig .tc := ⟨.hbm, 91, rfl⟩
abbrev main_cst_7 : Ref sig .tc := ⟨.hbm, 92, rfl⟩
abbrev main_v48 : Ref sig .tc := ⟨.hbm, 93, rfl⟩
abbrev main_v49 : Ref sig .tc := ⟨.hbm, 94, rfl⟩
abbrev main_c_8 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_9 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_call3_cst : Ref sig .tc := ⟨.hbm, 134, rfl⟩
abbrev main_call3_v0 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  reducesTo_S600000x128_S128_d0 : S600000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  gather_S50000x128_S600000x1_S600000x128_1_0_n_n_0_1_1128_wf : GatherDims.WF S50000x128 S600000x1 S600000x128 [1] [0] [] [0] [] 1 ![1, 128]
  dot_S600000x256_S128x256_S600000x128_1_1_0_0_n_n_wf : DotDims.WF S600000x256 S128x256 S600000x128 [1] [1] [0] [0] [] []
  dot_S600000x128_S128x128_S600000x128_1_1_0_0_n_n_wf : DotDims.WF S600000x128 S128x128 S600000x128 [1] [1] [0] [0] [] []
  dot_S600000x128_S1x128_S600000x1_1_1_0_0_n_n_wf : DotDims.WF S600000x128 S1x128 S600000x1 [1] [1] [0] [0] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S128x256_S600000x128_1_1_0_0_n_n : DotDims S600000x256 S128x256 S600000x128 where
  lhsContracting := [1]
  rhsContracting := [1]
  lhsNonContracting := [0]
  rhsNonContracting := [0]
  lhsBatch := []
  rhsBatch := []
  wf := dot_S600000x256_S128x256_S600000x128_1_1_0_0_n_n_wf
def dot_S600000x128_S128x128_S600000x128_1_1_0_0_n_n : DotDims S600000x128 S128x128 S600000x128 where
  lhsContracting := [1]
  rhsContracting := [1]
  lhsNonContracting := [0]
  rhsNonContracting := [0]
  lhsBatch := []
  rhsBatch := []
  wf := dot_S600000x128_S128x128_S600000x128_1_1_0_0_n_n_wf
def dot_S600000x128_S1x128_S600000x1_1_1_0_0_n_n : DotDims S600000x128 S1x128 S600000x1 where
  lhsContracting := [1]
  rhsContracting := [1]
  lhsNonContracting := [0]
  rhsNonContracting := [0]
  lhsBatch := []
  rhsBatch := []
  wf := dot_S600000x128_S1x128_S600000x1_1_1_0_0_n_n_wf

class Facts : Prop extends Facts₀ where

variable [Facts]
-- ==== Proof.KIRegion0Body.lean ====
import proofs.«121905_j68624987455985_1_alg».proof.Proof.Gen.KernelIdeal.Launch
import proofs.«121905_j68624987455985_1_alg».proof.Proof.Gen.KernelIdeal.Skeleton
import proofs.«121905_j68624987455985_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 99 :=
  (by decide +kernel : ∀ t : Fin grid0.N, cond0_1 (grid0.coords t) ↔ t.val = 99)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

theorem hz2 : (![0, 0] : Fin 2 → Nat) = fun _ => 0 := by funext a; fin_cases a <;> rfl

theorem read_last_store {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w :=
  (View.read_writes_eq_canon _ _ _ (fun y => ⟨_, List.mem_cons.mpr (Or.inl rfl), View.mem_set_unit_zero hz inb y⟩)).trans
    (View.canon_cons_unit_zero hz inb w L)
section
variable (c : Dev nD) (i : grid0.Coords) (arg1 : Memref sig .tc .vmem S6000x256 .bf16) (harg1 : arg1.IsWhole) (arg2 : Memref sig .tc .vmem S256x128 .bf16) (harg2 : arg2.IsWhole) (arg3 : Memref sig .tc .vmem S1x128 .f32) (harg3 : arg3.IsWhole) (arg4 : Memref sig .tc .vmem S6000x128 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

set_option maxHeartbeats 1000000 in

theorem run0_A (hc0 : cond0_0 i) (hc1 : ¬cond0_1 i)
    (x0 : Vec F S6000x256 .bf16) (x1 : Vec F S256x128 .bf16) (x2 : Vec F S1x128 .f32) (xi4 xi5 : Vec F S1x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ owns (c : Thread nD τ) arg5 fullShare xi4
        ∗ owns (c : Thread nD τ) arg6 fullShare xi5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (k0_pay6 x0 x1 x2)
            ∗ owns (c : Thread nD τ) arg5 fullShare xi4
            ∗ owns (c : Thread nD τ) arg6 fullShare xi5
            ∗ owns (c : Thread nD τ) arg7 fullShare (k0_pay4 x0 x1 x2 k0_pay1)
            ∗ owns (c : Thread nD τ) arg8 fullShare (k0_pay5 x0 x1 x2 k0_pay2)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  simp only [k0_part1_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (read_last_store arg4 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_last_store arg7 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  iexists _; isplitr
  swap; · iexact H8
  ipureintro
  refine (read_last_store arg8 _ hz2 _ _ _).trans ?_
  sl_unfold_words
  simp only [View.readAt_eq_ld, harg1.read_unread, harg2.read_unread, harg3.read_unread, harg7.read_unread, harg8.read_unread,
      View.ld_unit_zero (S := S6000x256) hz2, View.ld_unit_zero (S := S256x128) hz2, View.ld_unit_zero (S := S1x128) hz2,
      View.readCov_unit_zero (S := S1x128) _ hz2]

set_option maxHeartbeats 1000000 in

theorem run0_B (hc0 : ¬cond0_0 i) (hc1 : ¬cond0_1 i)
    (x0 : Vec F S6000x256 .bf16) (x1 : Vec F S256x128 .bf16) (x2 : Vec F S1x128 .f32) (xi4 xi5 s q : Vec F S1x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ owns (c : Thread nD τ) arg5 fullShare xi4
        ∗ owns (c : Thread nD τ) arg6 fullShare xi5
        ∗ owns (c : Thread nD τ) arg7 fullShare s
        ∗ owns (c : Thread nD τ) arg8 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare (k0_pay6 x0 x1 x2)
            ∗ owns (c : Thread nD τ) arg5 fullShare xi4
            ∗ owns (c : Thread nD τ) arg6 fullShare xi5
            ∗ owns (c : Thread nD τ) arg7 fullShare (k0_pay4 x0 x1 x2 s)
            ∗ owns (c : Thread nD τ) arg8 fullShare (k0_pay5 x0 x1 x2 q)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  simp only [k0_part1_eq_skeleton]
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3
  obtain rfl := harg5.eq_unread hf5; obtain rfl := harg6.eq_unread hf6
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (read_last_store arg4 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_last_store arg7 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  iexists _; isplitr
  swap; · iexact H8
  ipureintro
  refine (read_last_store arg8 _ hz2 _ _ _).trans ?_
  sl_unfold_words
  simp only [View.readAt_eq_ld, harg1.read_unread, harg2.read_unread, harg3.read_unread, harg7.read_unread, harg8.read_unread,
      View.ld_unit_zero (S := S6000x256) hz2, View.ld_unit_zero (S := S256x128) hz2, View.ld_unit_zero (S := S1x128) hz2,
      View.readCov_unit_zero (S := S1x128) _ hz2]

set_option maxHeartbeats 1000000 in

theorem run0_C (hc0 : ¬cond0_0 i) (hc1 : cond0_1 i)
    (x0 : Vec F S6000x256 .bf16) (x1 : Vec F S256x128 .bf16) (x2 : Vec F S1x128 .f32) (s q : Vec F S1x128 .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (∃ d, owns (c : Thread nD τ) arg6 fullShare d)
        ∗ owns (c : Thread nD τ) arg7 fullShare s
        ∗ owns (c : Thread nD τ) arg8 fullShare q
        ∗ (iprop(owns (c : Thread nD τ) arg1 fullShare x0
            ∗ owns (c : Thread nD τ) arg2 fullShare x1
            ∗ owns (c : Thread nD τ) arg3 fullShare x2
            ∗ owns (c : Thread nD τ) arg4 fullShare (k0_pay6 x0 x1 x2)
            ∗ owns (c : Thread nD τ) arg5 fullShare (k0_pay4 x0 x1 x2 s)
            ∗ owns (c : Thread nD τ) arg6 fullShare (k0_pay5 x0 x1 x2 q)
            ∗ owns (c : Thread nD τ) arg7 fullShare (k0_pay4 x0 x1 x2 s)
            ∗ owns (c : Thread nD τ) arg8 fullShare (k0_pay5 x0 x1 x2 q)) -∗ K ⟨⟩))
      ⊢ wp frame (wpE (defs₀ (F := F)) Variants.none c none) E (cc0__mlp1_kernel i arg1 harg1 arg2 harg2 arg3 harg3 arg4 harg4 arg5 harg5 arg6 harg6 arg7 harg7 arg8 harg8) K := by
  simp only [cc0__mlp1_kernel_eq_skeleton]; unfold cc0__mlp1_kernel_skel
  simp only [k0_part1_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    refine (read_last_store arg4 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  isplitl [H5]
  · iexists _; isplitr
    swap; · iexact H5
    ipureintro
    refine (read_last_store arg5 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  isplitl [H6]
  · iexists _; isplitr
    swap; · iexact H6
    ipureintro
    refine (read_last_store arg6 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  isplitl [H7]
  · iexists _; isplitr
    swap; · iexact H7
    ipureintro
    refine (read_last_store arg7 _ hz2 _ _ _).trans ?_
    sl_unfold_words
    simp only [View.readAt_eq_ld, harg1.read_unread, harg2.read_unread, harg3.read_unread, harg7.read_unread, harg8.read_unread,
        View.ld_unit_zero (S := S6000x256) hz2, View.ld_unit_zero (S := S256x128) hz2, View.ld_unit_zero (S := S1x128) hz2,
        View.readCov_unit_zero (S := S1x128) _ hz2]
  iexists _; isplitr
  swap; · iexact H8
  ipureintro
  refine (read_last_store arg8 _ hz2 _ _ _).trans ?_
  sl_unfold_words
  simp only [View.readAt_eq_ld, harg1.read_unread, harg2.read_unread, harg3.read_unread, harg7.read_unread, harg8.read_unread,
      View.ld_unit_zero (S := S6000x256) hz2, View.ld_unit_zero (S := S256x128) hz2, View.ld_unit_zero (S := S1x128) hz2,
      View.readCov_unit_zero (S := S1x128) _ hz2]

end

end Cert.KernelIdeal.Hand

end
-- ==== Proof.KIRegion0.lean ====
import proofs.«121905_j68624987455985_1_alg».proof.Proof.KIRegion0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev blkX (c : Dev nD) (t : Fin cfg0.N) : Vec F S6000x256 .bf16 := iblk0 V c 0 t
abbrev blkW (c : Dev nD) (t : Fin cfg0.N) : Vec F S256x128 .bf16 := iblk0 V c 1 t
abbrev blkB (c : Dev nD) (t : Fin cfg0.N) : Vec F S1x128 .f32 := iblk0 V c 2 t

def pt0 (n : ℕ) : Fin cfg0.N := ⟨n % 100, lt_of_lt_of_eq (Nat.mod_lt _ (by decide)) N_0.symm⟩

theorem pt0_val (t : Fin cfg0.N) : pt0 t.val = t :=
  Fin.ext (Nat.mod_eq_of_lt (lt_of_lt_of_eq t.isLt N_0))

def acc0s (c : Dev nD) : ℕ → Vec F S1x128 .f32
  | 0 => k0_pay4 (blkX V c (pt0 0)) (blkW V c (pt0 0)) (blkB V c (pt0 0)) (k0_pay1 (F := F))
  | n + 1 => k0_pay4 (blkX V c (pt0 (n + 1))) (blkW V c (pt0 (n + 1))) (blkB V c (pt0 (n + 1))) (acc0s c n)

def acc0q (c : Dev nD) : ℕ → Vec F S1x128 .f32
  | 0 => k0_pay5 (blkX V c (pt0 0)) (blkW V c (pt0 0)) (blkB V c (pt0 0)) (k0_pay2 (F := F))
  | n + 1 => k0_pay5 (blkX V c (pt0 (n + 1))) (blkW V c (pt0 (n + 1))) (blkB V c (pt0 (n + 1))) (acc0q c n)

theorem acc0s_zero (c : Dev nD) :
    acc0s V c 0 = k0_pay4 (blkX V c (pt0 0)) (blkW V c (pt0 0)) (blkB V c (pt0 0)) (k0_pay1 (F := F)) := rfl
theorem acc0s_succ (c : Dev nD) (n : ℕ) :
    acc0s V c (n + 1) = k0_pay4 (blkX V c (pt0 (n + 1))) (blkW V c (pt0 (n + 1))) (blkB V c (pt0 (n + 1))) (acc0s V c n) := rfl
theorem acc0q_zero (c : Dev nD) :
    acc0q V c 0 = k0_pay5 (blkX V c (pt0 0)) (blkW V c (pt0 0)) (blkB V c (pt0 0)) (k0_pay2 (F := F)) := rfl
theorem acc0q_succ (c : Dev nD) (n : ℕ) :
    acc0q V c (n + 1) = k0_pay5 (blkX V c (pt0 (n + 1))) (blkW V c (pt0 (n + 1))) (blkB V c (pt0 (n + 1))) (acc0q V c n) := rfl

theorem acc0s_first (c : Dev nD) (t : Fin cfg0.N) (h : t.val = 0) :
    acc0s V c t.val = k0_pay4 (blkX V c t) (blkW V c t) (blkB V c t) (k0_pay1 (F := F)) := by
  have e : pt0 0 = t := by rw [← h]; exact pt0_val t
  rw [h, acc0s_zero, e]
theorem acc0q_first (c : Dev nD) (t : Fin cfg0.N) (h : t.val = 0) :
    acc0q V c t.val = k0_pay5 (blkX V c t) (blkW V c t) (blkB V c t) (k0_pay2 (F := F)) := by
  have e : pt0 0 = t := by rw [← h]; exact pt0_val t
  rw [h, acc0q_zero, e]

theorem acc0s_later (c : Dev nD) (t : Fin cfg0.N) (h : t.val ≠ 0) :
    acc0s V c t.val = k0_pay4 (blkX V c t) (blkW V c t) (blkB V c t) (acc0s V c (t.val - 1)) := by
  obtain ⟨n, hn⟩ := t
  cases n with
  | zero => exact absurd rfl h
  | succ n =>
    have e : pt0 (n + 1) = ⟨n + 1, hn⟩ := pt0_val ⟨n + 1, hn⟩
    show acc0s V c (n + 1) = _
    rw [acc0s_succ, e]; rfl
theorem acc0q_later (c : Dev nD) (t : Fin cfg0.N) (h : t.val ≠ 0) :
    acc0q V c t.val = k0_pay5 (blkX V c t) (blkW V c t) (blkB V c t) (acc0q V c (t.val - 1)) := by
  obtain ⟨n, hn⟩ := t
  cases n with
  | zero => exact absurd rfl h
  | succ n =>
    have e : pt0 (n + 1) = ⟨n + 1, hn⟩ := pt0_val ⟨n + 1, hn⟩
    show acc0q V c (n + 1) = _
    rw [acc0q_succ, e]; rfl

abbrev scM0_0 : Memref sig .tc .vmem S1x128 .f32 := Memref.whole cc0_scratch0
abbrev scM0_1 : Memref sig .tc .vmem S1x128 .f32 := Memref.whole cc0_scratch1

def restBut0 (c : Dev nD) : sProp 𝕄 :=
  Pipeline.scopedRestBut (Ix := Unit) (Name := ℕ) (U := UR sig nD τ) (Lvl := ℕ) (Val := Elt F) spec0 c [cc0_scratch0, cc0_scratch1]

theorem sep_assoc_eq (P Q R : sProp 𝕄) : (iprop((P ∗ Q) ∗ R) : sProp 𝕄) = iprop(P ∗ Q ∗ R) := by
  have h₁ : (iprop((P ∗ Q) ∗ R) : sProp 𝕄) ⊢ iprop(P ∗ Q ∗ R) := by
    iintro ⟨⟨HP, HQ⟩, HR⟩
    isplitl [HP]; · iexact HP
    isplitl [HQ]; · iexact HQ
    iexact HR
  have h₂ : (iprop(P ∗ Q ∗ R) : sProp 𝕄) ⊢ iprop((P ∗ Q) ∗ R) := by
    iintro ⟨HP, HQ, HR⟩
    isplitl [HP HQ]
    · isplitl [HP]; · iexact HP
      iexact HQ
    iexact HR
  exact BI.equiv_iff.mp ⟨h₁, h₂⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restBut0 c) ∗ (∃ r, prngReg c r)) := by
  unfold Pipeline.ΦA restBut0
  rw [Pipeline.scopedRest_split_of_list spec0 c [cc0_scratch0, cc0_scratch1] (by decide) (by decide)]
  simp only [scM0_0, scM0_1, owns_whole, bigSepL]
  exact congrArg (fun X : sProp 𝕄 => iprop(X ∗ ∃ r, prngReg c r)) (sep_assoc_eq _ _ _)

def PhiS (c : Dev nD) : ℕ → sProp 𝕄
  | 0 => Pipeline.ΦA spec0 c
  | n + 1 => iprop(iprop(owns (c : Thread nD τ) scM0_0 fullShare (acc0s V c n) ∗ owns (c : Thread nD τ) scM0_1 fullShare (acc0q V c n) ∗ restBut0 c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM0_0 fullShare (acc0s V c n) ∗ owns (c : Thread nD τ) scM0_1 fullShare (acc0q V c n) ∗ restBut0 c) ∗ (∃ r, prngReg c r)) := rfl
theorem PhiS_pos (c : Dev nD) (n : ℕ) (hz : n ≠ 0) :
    PhiS V c n = iprop(iprop(owns (c : Thread nD τ) scM0_0 fullShare (acc0s V c (n - 1)) ∗ owns (c : Thread nD τ) scM0_1 fullShare (acc0q V c (n - 1)) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (blkX V c t) (blkW V c t) (blkB V c t)
    | ⟨4, _⟩ => acc0s V c t.val
    | ⟨5, _⟩ => acc0q V c t.val
  Φ t := PhiS V c t.val
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) : (dat0 V c).Φ t.castSucc = PhiS V c t.val := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (blkX V c t) (blkW V c t) (blkB V c t) := by dsimp only [dat0]
theorem after0_4 (c : Dev nD) (t : Fin cfg0.N) : (dat0 V c).after 4 t = acc0s V c t.val := by dsimp only [dat0]
theorem after0_5 (c : Dev nD) (t : Fin cfg0.N) : (dat0 V c).after 5 t = acc0q V c t.val := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Region0

section Obligation0
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) from rfl, PhiS_succ, PhiS_castSucc]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 100 := lt_of_lt_of_eq t.isLt (show cfg0.N = 100 from N_0)
  by_cases h0 : t.val = 0
  · have h1 : ¬t.val = 99 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    rw [acc0s_first V c t h0, acc0q_first V c t h0, PhiS_zero V c _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ _ _ hc0 hc1 (blkX V c t) (blkW V c t) (blkB V c t) _ _ Set.univ _)
    iframe H0 H1 H2 H4 H5 HS0 HS1
    isplitl [H3]; · iexists _; iexact H3
    iintro ⟨H0, H1, H2, H3, H4, H5, HS0, HS1⟩
    iframe HS0 HS1 HR Hg Ho H0 H1 H2 H3
    isplitl [H4] <;> (iexists _; iassumption)
  · have hc0 : ¬cond0_0 (grid0.coords t) := fun h => h0 ((hcond0_0 t).mp h)
    by_cases h1 : t.val = 99
    · have hc1 : cond0_1 (grid0.coords t) := (hcond0_1 t).mpr h1
      rw [show (dat0 V c).leavesExact 4 t = owns (c : Thread nD τ) (st0_4 t) fullShare ((dat0 V c).after 4 t) from by
        unfold Dat.leavesExact; rw [liveAt0_4 t hc1], after0_4]
      rw [show (dat0 V c).leavesExact 5 t = owns (c : Thread nD τ) (st0_5 t) fullShare ((dat0 V c).after 5 t) from by
        unfold Dat.leavesExact; rw [liveAt0_5 t hc1], after0_5]
      rw [acc0s_later V c t h0, acc0q_later V c t h0, PhiS_pos V c _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ _ _ hc0 hc1 (blkX V c t) (blkW V c t) (blkB V c t) (acc0s V c (t.val - 1)) (acc0q V c (t.val - 1)) Set.univ _)
      iframe H0 H1 H2 HS0 HS1
      isplitl [H3]; · iexists _; iexact H3
      isplitl [H4]; · iexists _; iexact H4
      isplitl [H5]; · iexists _; iexact H5
      iintro ⟨H0, H1, H2, H3, H4, H5, HS0, HS1⟩
      iframe HS0 HS1 HR Hg Ho H0 H1 H2 H3 H4 H5
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      rw [acc0s_later V c t h0, acc0q_later V c t h0, PhiS_pos V c _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ hc0 hc1 (blkX V c t) (blkW V c t) (blkB V c t) _ _ (acc0s V c (t.val - 1)) (acc0q V c (t.val - 1)) Set.univ _)
      iframe H0 H1 H2 H4 H5 HS0 HS1
      isplitl [H3]; · iexists _; iexact H3
      iintro ⟨H0, H1, H2, H3, H4, H5, HS0, HS1⟩
      iframe HS0 HS1 HR Hg Ho H0 H1 H2 H3
      isplitl [H4] <;> (iexists _; iassumption)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS V c 0 from rfl, PhiS_zero V c 0 rfl]

theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 100 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Obligation0

end Cert.KernelIdeal.Hand

end
-- ==== Proof.KIRegion1Cases.lean ====
import proofs.«121905_j68624987455985_1_alg».proof.Proof.Gen.KernelIdeal.Launch
import proofs.«121905_j68624987455985_1_alg».proof.Proof.Gen.KernelIdeal.Skeleton
import proofs.«121905_j68624987455985_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val = 0 :=
  (by decide +kernel : ∀ t : Fin grid1.N, cond1_0 (grid1.coords t) ↔ t.val = 0)

abbrev cond1_1 (i : grid1.Coords) : Prop := k1_cond2 i = 1#1

theorem hcond1_1 : ∀ t : Fin cfg1.N, cond1_1 (grid1.coords t) ↔ t.val = 99 :=
  (by decide +kernel : ∀ t : Fin grid1.N, cond1_1 (grid1.coords t) ↔ t.val = 99)

theorem hz1 : (![0, 0] : Fin 2 → Nat) = fun _ => 0 := funext fun a => by fin_cases a <;> rfl

theorem read_store_whole {S : Shape} {e : EltTy} {sg : RefSig} {κ : Kind} {sp : Space} (v : View sg κ sp S e) (f : v.ty.Contents (Elt F))
    {off : Fin S.rank → Nat} (hz : off = fun _ => 0) (inb : ∀ a, off a + S.size a ≤ S.size a) (w : S.Idx → Elt F e)
    (L : List (View.Piece (Elt F) S e)) (w' : S.Idx → Elt F e) (h : w = w') :
    v.read (Elt F) (v.writes (Elt F) f ((⟨Rect.unit off S.size inb, w⟩ : View.Piece (Elt F) S e) :: L)) = w' := by
  subst h
  rw [View.read_writes_eq_canon _ _ _ (fun y => ⟨_, List.mem_cons_self, View.mem_set_unit_zero hz inb y⟩), View.canon_cons_unit_zero hz]
section
variable (c : Dev nD) (E : Set ℕ) (i : grid1.Coords) (arg1 : Memref sig .tc .vmem S6000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S6000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)

set_option maxHeartbeats 1000000 in

theorem kernel1_A
    (hc0 : cond1_0 i) (hc1 : ¬cond1_1 i)
    (x0 : Vec F S6000x128 .bf16) (x1 x2 : Vec F S1x128 .f32) (x3 : Vec F S128x128 .bf16) (x4 : Vec F S1x128 .f32)
    (xi6 xi7 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k1_pay2 (k1_pay5 x0 x1 x2 x3 x4))
            ∗ owns (c : Thread nD τ) arg7 fullShare xi6
            ∗ owns (c : Thread nD τ) arg8 fullShare xi7
            ∗ owns (c : Thread nD τ) arg9 fullShare (k1_pay6 x0 x1 x2 x3 x4 k1_pay3)
            ∗ owns (c : Thread nD τ) arg10 fullShare (k1_pay1 k1_pay4 (k1_pay7 x0 x1 x2 x3 x4))) -∗ K ⟨⟩))
      ⊢ wp frame (wpE (defs₀ (F := F)) Variants.none c none) E (cc1__mlp2_kernel i arg1 harg1 arg2 harg2 arg3 harg3 arg4 harg4 arg5 harg5 arg6 harg6 arg7 harg7 arg8 harg8 arg9 harg9 arg10 harg10) K := by
  simp only [cc1__mlp2_kernel_eq_skeleton]; unfold cc1__mlp2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %g0, -, HS0⟩, ⟨%ds1, %g1, -, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  iexists _; isplitr
  swap; · iexact HS1
  ipureintro
  refine read_store_whole _ _ hz1 _ _ _ _ ?_
  sl_unfold_words
  simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]

set_option maxHeartbeats 1000000 in

theorem kernel1_B
    (hc0 : ¬cond1_0 i) (hc1 : ¬cond1_1 i)
    (x0 : Vec F S6000x128 .bf16) (x1 x2 : Vec F S1x128 .f32) (x3 : Vec F S128x128 .bf16) (x4 : Vec F S1x128 .f32)
    (xi6 xi7 s0 s1 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ owns (c : Thread nD τ) arg7 fullShare xi6
        ∗ owns (c : Thread nD τ) arg8 fullShare xi7
        ∗ owns (c : Thread nD τ) arg9 fullShare s0
        ∗ owns (c : Thread nD τ) arg10 fullShare s1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k1_pay2 (k1_pay5 x0 x1 x2 x3 x4))
            ∗ owns (c : Thread nD τ) arg7 fullShare xi6
            ∗ owns (c : Thread nD τ) arg8 fullShare xi7
            ∗ owns (c : Thread nD τ) arg9 fullShare (k1_pay6 x0 x1 x2 x3 x4 s0)
            ∗ owns (c : Thread nD τ) arg10 fullShare (k1_pay1 s1 (k1_pay7 x0 x1 x2 x3 x4))) -∗ K ⟨⟩))
      ⊢ wp frame (wpE (defs₀ (F := F)) Variants.none c none) E (cc1__mlp2_kernel i arg1 harg1 arg2 harg2 arg3 harg3 arg4 harg4 arg5 harg5 arg6 harg6 arg7 harg7 arg8 harg8 arg9 harg9 arg10 harg10) K := by
  simp only [cc1__mlp2_kernel_eq_skeleton]; unfold cc1__mlp2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%g0, %hg0, HS0⟩, ⟨%g1, %hg1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hf6; obtain rfl := harg8.eq_unread hf7
  obtain rfl := harg9.eq_unread hg0; obtain rfl := harg10.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  iexists _; isplitr
  swap; · iexact HS1
  ipureintro
  refine read_store_whole _ _ hz1 _ _ _ _ ?_
  sl_unfold_words
  simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]

set_option maxHeartbeats 1000000 in

theorem kernel1_C
    (hc0 : ¬cond1_0 i) (hc1 : cond1_1 i)
    (x0 : Vec F S6000x128 .bf16) (x1 x2 : Vec F S1x128 .f32) (x3 : Vec F S128x128 .bf16) (x4 : Vec F S1x128 .f32)
    (s0 s1 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ owns (c : Thread nD τ) arg9 fullShare s0
        ∗ owns (c : Thread nD τ) arg10 fullShare s1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (k1_pay2 (k1_pay5 x0 x1 x2 x3 x4))
            ∗ owns (c : Thread nD τ) arg7 fullShare (k1_pay6 x0 x1 x2 x3 x4 s0)
            ∗ owns (c : Thread nD τ) arg8 fullShare (k1_pay1 s1 (k1_pay7 x0 x1 x2 x3 x4))
            ∗ owns (c : Thread nD τ) arg9 fullShare (k1_pay6 x0 x1 x2 x3 x4 s0)
            ∗ owns (c : Thread nD τ) arg10 fullShare (k1_pay1 s1 (k1_pay7 x0 x1 x2 x3 x4))) -∗ K ⟨⟩))
      ⊢ wp frame (wpE (defs₀ (F := F)) Variants.none c none) E (cc1__mlp2_kernel i arg1 harg1 arg2 harg2 arg3 harg3 arg4 harg4 arg5 harg5 arg6 harg6 arg7 harg7 arg8 harg8 arg9 harg9 arg10 harg10) K := by
  simp only [cc1__mlp2_kernel_eq_skeleton]; unfold cc1__mlp2_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%g0, %hg0, HS0⟩, ⟨%g1, %hg1, HS1⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hg0; obtain rfl := harg10.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  isplitl [H6]
  · iexists _; isplitr
    swap; · iexact H6
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  isplitl [H7]
  · iexists _; isplitr
    swap; · iexact H7
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  isplitl [HS0]
  · iexists _; isplitr
    swap; · iexact HS0
    ipureintro
    refine read_store_whole _ _ hz1 _ _ _ _ ?_
    sl_unfold_words
    simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]
  iexists _; isplitr
  swap; · iexact HS1
  ipureintro
  refine read_store_whole _ _ hz1 _ _ _ _ ?_
  sl_unfold_words
  simp only [View.readAt_eq_ld, harg1.read_unread, harg2.read_unread, harg3.read_unread, harg4.read_unread, harg5.read_unread, harg9.read_unread, harg10.read_unread, View.ld_unit_zero (S := S6000x128) hz1, View.ld_unit_zero (S := S1x128) hz1, View.ld_unit_zero (S := S128x128) hz1, View.readCov_unit_zero (S := S1x128) _ hz1]

end

end Cert.KernelIdeal.Hand

end
-- ==== Proof.KIRegion1.lean ====
import proofs.«121905_j68624987455985_1_alg».proof.Proof.KIRegion1Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hblk1 (c : Dev nD) (t : Fin cfg1.N) : Vec F S6000x128 .bf16 := iblk1 V c 0 t
abbrev scblk1 (c : Dev nD) (t : Fin cfg1.N) : Vec F S1x128 .f32 := iblk1 V c 1 t
abbrev shblk1 (c : Dev nD) (t : Fin cfg1.N) : Vec F S1x128 .f32 := iblk1 V c 2 t
abbrev wblk1 (c : Dev nD) (t : Fin cfg1.N) : Vec F S128x128 .bf16 := iblk1 V c 3 t
abbrev bblk1 (c : Dev nD) (t : Fin cfg1.N) : Vec F S1x128 .f32 := iblk1 V c 4 t

def pt1 (n : ℕ) : Fin cfg1.N := if h : n < cfg1.N then ⟨n, h⟩ else ⟨0, by rw [show cfg1.N = 100 from N_1]; omega⟩

theorem pt1_val (t : Fin cfg1.N) : pt1 t.val = t := by unfold pt1; rw [dif_pos t.isLt]

def acc1s (c : Dev nD) : ℕ → Vec F S1x128 .f32
  | 0 => k1_pay6 (hblk1 V c (pt1 0)) (scblk1 V c (pt1 0)) (shblk1 V c (pt1 0)) (wblk1 V c (pt1 0)) (bblk1 V c (pt1 0)) k1_pay3
  | n + 1 => k1_pay6 (hblk1 V c (pt1 (n + 1))) (scblk1 V c (pt1 (n + 1))) (shblk1 V c (pt1 (n + 1))) (wblk1 V c (pt1 (n + 1))) (bblk1 V c (pt1 (n + 1))) (acc1s c n)

def acc1q (c : Dev nD) : ℕ → Vec F S1x128 .f32
  | 0 => k1_pay1 k1_pay4 (k1_pay7 (hblk1 V c (pt1 0)) (scblk1 V c (pt1 0)) (shblk1 V c (pt1 0)) (wblk1 V c (pt1 0)) (bblk1 V c (pt1 0)))
  | n + 1 => k1_pay1 (acc1q c n) (k1_pay7 (hblk1 V c (pt1 (n + 1))) (scblk1 V c (pt1 (n + 1))) (shblk1 V c (pt1 (n + 1))) (wblk1 V c (pt1 (n + 1))) (bblk1 V c (pt1 (n + 1))))

theorem acc1s_first (c : Dev nD) (t : Fin cfg1.N) (h : t.val = 0) :
    acc1s V c t.val = k1_pay6 (hblk1 V c t) (scblk1 V c t) (shblk1 V c t) (wblk1 V c t) (bblk1 V c t) k1_pay3 := by
  obtain ⟨n, hn⟩ := t; subst h; show acc1s V c 0 = _; unfold acc1s; rw [pt1_val ⟨0, hn⟩]
theorem acc1s_next (c : Dev nD) (t : Fin cfg1.N) (h : t.val ≠ 0) :
    acc1s V c t.val = k1_pay6 (hblk1 V c t) (scblk1 V c t) (shblk1 V c t) (wblk1 V c t) (bblk1 V c t) (acc1s V c (t.val - 1)) := by
  obtain ⟨n, hn⟩ := t
  cases n with
  | zero => exact absurd rfl h
  | succ n => show acc1s V c (n + 1) = _; rw [acc1s, pt1_val ⟨n + 1, hn⟩]; rfl
theorem acc1q_first (c : Dev nD) (t : Fin cfg1.N) (h : t.val = 0) :
    acc1q V c t.val = k1_pay1 k1_pay4 (k1_pay7 (hblk1 V c t) (scblk1 V c t) (shblk1 V c t) (wblk1 V c t) (bblk1 V c t)) := by
  obtain ⟨n, hn⟩ := t; subst h; show acc1q V c 0 = _; unfold acc1q; rw [pt1_val ⟨0, hn⟩]
theorem acc1q_next (c : Dev nD) (t : Fin cfg1.N) (h : t.val ≠ 0) :
    acc1q V c t.val = k1_pay1 (acc1q V c (t.val - 1)) (k1_pay7 (hblk1 V c t) (scblk1 V c t) (shblk1 V c t) (wblk1 V c t) (bblk1 V c t)) := by
  obtain ⟨n, hn⟩ := t
  cases n with
  | zero => exact absurd rfl h
  | succ n => show acc1q V c (n + 1) = _; rw [acc1q, pt1_val ⟨n + 1, hn⟩]; rfl

abbrev scM1_0 : Memref sig .tc .vmem S1x128 .f32 := Memref.whole cc1_scratch0
abbrev scM1_1 : Memref sig .tc .vmem S1x128 .f32 := Memref.whole cc1_scratch1

abbrev Rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(((∃ d, owns (c : Thread nD τ) scM1_0 fullShare d) ∗ (∃ d, owns (c : Thread nD τ) scM1_1 fullShare d)) ∗ Rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]; try rfl

def Phi1 (c : Dev nD) : (n : ℕ) → n ≤ cfg1.N → sProp 𝕄
  | 0, _ => Pipeline.ΦA spec1 c
  | n + 1, _ => iprop(iprop((owns (c : Thread nD τ) scM1_0 fullShare (acc1s V c n) ∗ owns (c : Thread nD τ) scM1_1 fullShare (acc1q V c n)) ∗ Rest1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop((owns (c : Thread nD τ) scM1_0 fullShare (acc1s V c n) ∗ owns (c : Thread nD τ) scM1_1 fullShare (acc1q V c n)) ∗ Rest1 (F := F) c) ∗ (∃ r, prngReg c r)) := rfl
theorem Phi1_pos (c : Dev nD) (n : ℕ) (h : n ≤ cfg1.N) (hz : n ≠ 0) :
    Phi1 V c n h = iprop(iprop((owns (c : Thread nD τ) scM1_0 fullShare (acc1s V c (n - 1)) ∗ owns (c : Thread nD τ) scM1_1 fullShare (acc1q V c (n - 1))) ∗ Rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (k1_pay5 (hblk1 V c t) (scblk1 V c t) (shblk1 V c t) (wblk1 V c t) (bblk1 V c t))
    | ⟨6, _⟩ => acc1s V c t.val
    | ⟨7, _⟩ => acc1q V c t.val
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay2 (k1_pay5 (hblk1 V c t) (scblk1 V c t) (shblk1 V c t) (wblk1 V c t) (bblk1 V c t)) := by dsimp only [dat1]
theorem after1_6 (c : Dev nD) (t : Fin cfg1.N) : (dat1 V c).after 6 t = acc1s V c t.val := by dsimp only [dat1]
theorem after1_7 (c : Dev nD) (t : Fin cfg1.N) : (dat1 V c).after 7 t = acc1q V c t.val := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

theorem idleAt1_6 : ∀ t : Fin cfg1.N, ¬cond1_1 (grid1.coords t) → cfg1.idle 6 (grid1.coords t) = true := by decide +kernel
theorem idleAt1_7 : ∀ t : Fin cfg1.N, ¬cond1_1 (grid1.coords t) → cfg1.idle 7 (grid1.coords t) = true := by decide +kernel
theorem noFlush1_6 : ∀ t : Fin cfg1.N, ¬cond1_1 (grid1.coords t) → (cfg1.win 6).flush t = false := by decide +kernel
theorem noFlush1_7 : ∀ t : Fin cfg1.N, ¬cond1_1 (grid1.coords t) → (cfg1.win 7).flush t = false := by decide +kernel

theorem liveAt1_6 : ∀ t : Fin cfg1.N, cond1_1 (grid1.coords t) → cfg1.idle 6 (grid1.coords t) = false := by decide +kernel
theorem liveAt1_7 : ∀ t : Fin cfg1.N, cond1_1 (grid1.coords t) → cfg1.idle 7 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 100 := lt_of_lt_of_eq t.isLt (show cfg1.N = 100 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [Phi1_castSucc V c t]
  by_cases h0 : t.val = 0
  · have h1 : ¬t.val = 99 := by omega
    have hc0 : cond1_0 (grid1.coords t) := (hcond1_0 t).mpr h0
    have hc1 : ¬cond1_1 (grid1.coords t) := fun h => h1 ((hcond1_1 t).mp h)
    rw [Dat.leavesExact_idle (dat1 V c) 6 t (idleAt1_6 t hc1) (noFlush1_6 t hc1),
      Dat.leavesExact_idle (dat1 V c) 7 t (idleAt1_7 t hc1) (noFlush1_7 t hc1)]
    rw [acc1s_first V c t h0, acc1q_first V c t h0, Phi1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernel1_A c Set.univ (grid1.coords t) _ _ _ _ _ _ _ _ _ _ _ _ _ _ _ _ _ _ _ _ hc0 hc1 (hblk1 V c t) (scblk1 V c t) (shblk1 V c t) (wblk1 V c t) (bblk1 V c t) _ _ _)
    iframe H0 H1 H2 H3 H4 H6 H7 HS0 HS1
    isplitl [H5]; · iexists _; iexact H5
    iintro ⟨H0, H1, H2, H3, H4, H5, H6, H7, HS0, HS1⟩
    iframe HS0 HS1 HR Hg Ho H0 H1 H2 H3 H4 H5
    isplitl [H6] <;> (iexists _; iassumption)
  · by_cases h1 : t.val = 99
    · have hc0 : ¬cond1_0 (grid1.coords t) := fun h => h0 ((hcond1_0 t).mp h)
      have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      rw [show (dat1 V c).leavesExact 7 t = owns (c : Thread nD τ) (st1_7 t) fullShare ((dat1 V c).after 7 t) from by
        unfold Dat.leavesExact; rw [liveAt1_7 t hc1], after1_7]
      rw [acc1s_next V c t h0, acc1q_next V c t h0, Phi1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel1_C c Set.univ (grid1.coords t) _ _ _ _ _ _ _ _ _ _ _ _ _ _ _ _ _ _ _ _ hc0 hc1 (hblk1 V c t) (scblk1 V c t) (shblk1 V c t) (wblk1 V c t) (bblk1 V c t) (acc1s V c (t.val - 1)) (acc1q V c (t.val - 1)) _)
      iframe H0 H1 H2 H3 H4 HS0 HS1
      isplitl [H5]; · iexists _; iexact H5
      isplitl [H6]; · iexists _; iexact H6
      isplitl [H7]; · iexists _; iexact H7
      iintro ⟨H0, H1, H2, H3, H4, H5, H6, H7, HS0, HS1⟩
      iframe HS0 HS1 HR Hg Ho H0 H1 H2 H3 H4 H5 H6 H7
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 6 t (idleAt1_6 t hc1) (noFlush1_6 t hc1),
        Dat.leavesExact_idle (dat1 V c) 7 t (idleAt1_7 t hc1) (noFlush1_7 t hc1)]
      rw [acc1s_next V c t h0, acc1q_next V c t h0, Phi1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernel1_B c Set.univ (grid1.coords t) _ _ _ _ _ _ _ _ _ _ _ _ _ _ _ _ _ _ _ _ hc0 hc1 (hblk1 V c t) (scblk1 V c t) (shblk1 V c t) (wblk1 V c t) (bblk1 V c t) _ _ (acc1s V c (t.val - 1)) (acc1q V c (t.val - 1)) _)
      iframe H0 H1 H2 H3 H4 H6 H7 HS0 HS1
      isplitl [H5]; · iexists _; iexact H5
      iintro ⟨H0, H1, H2, H3, H4, H5, H6, H7, HS0, HS1⟩
      iframe HS0 HS1 HR Hg Ho H0 H1 H2 H3 H4 H5
      isplitl [H6] <;> (iexists _; iassumption)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 100 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Region

end Cert.KernelIdeal.Hand

end
-- ==== Proof.KIRegion2.lean ====
import proofs.«121905_j68624987455985_1_alg».proof.Proof.Gen.KernelIdeal.Launch
import proofs.«121905_j68624987455985_1_alg».proof.Proof.Gen.KernelIdeal.Skeleton
import proofs.«121905_j68624987455985_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev rRows2 : Rect S6000x128 := Rect.unit (s := S6000x128) ![0, 0] S6000x128.size inb_S6000x128_S6000x128_0_0
abbrev rVec2 : Rect S1x128 := Rect.unit (s := S1x128) ![0, 0] S1x128.size inb_S1x128_S1x128_0_0
abbrev rMat2 : Rect S128x128 := Rect.unit (s := S128x128) ![0, 0] S128x128.size inb_S128x128_S128x128_0_0

def out2_5 (x0 : Vec F S6000x128 .bf16) (x1 : Vec F S1x128 .f32) (x2 : Vec F S1x128 .f32) (x3 : Vec F S128x128 .bf16)
    (x4 : Vec F S1x128 .f32) : Vec F S6000x128 .f32 :=
  View.canon [⟨rRows2, k2_pay1 (View.ld x0 rRows2) (View.ld x1 rVec2) (View.ld x2 rVec2) (View.ld x3 rMat2) (View.ld x4 rVec2)⟩]

theorem cover2_5 (p0 : Vec F S6000x128 .f32) (y : S6000x128.Idx) :
    ∃ pc ∈ ([⟨rRows2, p0⟩] : List (View.Piece (Elt F) S6000x128 .f32)), y ∈ pc.1.set :=
  View.cover_of_tiled [⟨rRows2, p0⟩] S6000x128.size (by rfl) y

set_option maxHeartbeats 1000000 in

theorem sound_kernel2 (c : Dev nD) (E : Set ℕ) (i : grid2.Coords)
    (arg1 : Memref sig .tc .vmem S6000x128 .bf16) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S6000x128 .f32) (harg6 : arg6.IsWhole)
    (x0 : Vec F S6000x128 .bf16) (x1 : Vec F S1x128 .f32) (x2 : Vec F S1x128 .f32) (x3 : Vec F S128x128 .bf16) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__mlp3_kernel i arg1 harg1 arg2 harg2 arg3 harg3 arg4 harg4 arg5 harg5 arg6 harg6) K := by
  simp only [cc2__mlp3_kernel_eq_skeleton]; unfold cc2__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe HΦ Ho H0 H1 H2 H3 H4 H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl
theorem hout2 (c : Dev nD) : (dat2 V c).Φ (Fin.last cfg2.N) ⊢ Pipeline.ΦA spec2 c := .rfl

end Region2

end Cert.KernelIdeal.Hand

end
-- ==== Proof.KIRun.lean ====
import proofs.«121905_j68624987455985_1_alg».proof.Proof.Gen.KernelIdeal.Launch
import proofs.«121905_j68624987455985_1_alg».proof.Proof.Gen.KernelIdeal.Skeleton
import proofs.«121905_j68624987455985_1_alg».proof.Proof.Gen.KernelIdeal.Points
import proofs.«121905_j68624987455985_1_alg».proof.Proof.Gen.KernelIdeal.Regions
import proofs.«121905_j68624987455985_1_alg».proof.Proof.KIRegion0
import proofs.«121905_j68624987455985_1_alg».proof.Proof.KIRegion1
import proofs.«121905_j68624987455985_1_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

theorem W7_of_untouched (c : Dev nD) (r : Ref sig .tc) (h3 : r ∉ hostOps3_W) (a2 : ∀ w, Pipeline.arrRef spec2 w ≠ r)
    (h2 : r ∉ hostOps2_W) (a1 : ∀ w, Pipeline.arrRef spec1 w ≠ r) (h1 : r ∉ hostOps1_W) (a0 : ∀ w, Pipeline.arrRef spec0 w ≠ r)
    (h0 : r ∉ hostOps0_W) : W7 m ρ c (Proc.devRef .tc r) = m ((c : Thread nD τ).loc r) :=
  calc W7 m ρ c (Proc.devRef .tc r)
    _ = W6 m ρ c (Proc.devRef .tc r) := W7_of m ρ c r h3
    _ = W5 m ρ c (Proc.devRef .tc r) := W6_of_ne m ρ c r a2
    _ = W4 m ρ c (Proc.devRef .tc r) := W5_of m ρ c r h2
    _ = W3 m ρ c (Proc.devRef .tc r) := W4_of_ne m ρ c r a1
    _ = W2 m ρ c (Proc.devRef .tc r) := W3_of m ρ c r h1
    _ = W1 m ρ c (Proc.devRef .tc r) := W2_of_ne m ρ c r a0
    _ = W0 m ρ c (Proc.devRef .tc r) := W1_of m ρ c r h0
    _ = m ((c : Thread nD τ).loc r) := rfl

abbrev args : List (Ref sig .tc) :=
  [main_arg0, main_arg1, main_arg2, main_arg3, main_arg4, main_arg5, main_arg6, main_arg7, main_arg8, main_arg9,
    main_arg10, main_arg11]

/-- No host stretch writes an argument array and no region has one as a window, so each ends as launched. -/
theorem W7_arg (c : Dev nD) : ∀ r ∈ args, W7 m ρ c (Proc.devRef .tc r) = m ((c : Thread nD τ).loc r) := fun r hr =>
  have u := (by decide : ∀ r ∈ args, r ∉ hostOps3_W ∧ (∀ w, Pipeline.arrRef spec2 w ≠ r) ∧ r ∉ hostOps2_W
    ∧ (∀ w, Pipeline.arrRef spec1 w ≠ r) ∧ r ∉ hostOps1_W ∧ (∀ w, Pipeline.arrRef spec0 w ≠ r) ∧ r ∉ hostOps0_W) r hr
  W7_of_untouched m ρ c r u.1 u.2.1 u.2.2.1 u.2.2.2.1 u.2.2.2.2.1 u.2.2.2.2.2.1 u.2.2.2.2.2.2

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := StableHlo.held (c : Thread nD τ) (Pipeline.ucRefs τ sig) (W7 m ρ c)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

theorem main_run (c : Dev nD) : main (F := F) c = Pipeline.Seg.run (segs m ρ) := by
  rw [main_chain c, Pipeline.Seg.run_eq_chain]; rfl

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h => h)

/-- The twelve argument arrays read in `mem` as they do in `m`. -/
abbrev Kept (mem m : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)

/-- What the run leaves in memory reads the twelve argument arrays as launched. -/
theorem kept (c : Dev nD) (mem : (ℓ : Loc nD τ sig) → Buf (Elt F) ℓ)
    (h : ∀ b ∈ Pipeline.ucRefs τ sig, mem (((c : Thread nD τ)).1, b) = W7 m ρ c b) : Kept mem m c :=
  have H : ∀ r ∈ args, mem ((c.tc : Thread nD τ).loc r) = m ((c.tc : Thread nD τ).loc r) := fun r hr =>
    (h _ (mem_uc r ((by decide : ∀ r ∈ args, ¬ (Proc.devRef .tc r : DevRef τ sig).isScoped) r hr))).trans (W7_arg m ρ c r hr)
  ⟨H _ (by decide), H _ (by decide), H _ (by decide), H _ (by decide), H _ (by decide), H _ (by decide),
    H _ (by decide), H _ (by decide), H _ (by decide), H _ (by decide), H _ (by decide), H _ (by decide)⟩

theorem frame : θ_run defs (onTc (τ := τ) (main (F := F))) ⟨m, fun _ => 0, ρ⟩ (fun r => ∀ c : Dev nD, Kept r.2.mem m c) :=
  (θ_run defs _ _).mono (fun r h c => kept m ρ c r.2.mem (h c)) (run_all m ρ)

end Cert.KernelIdeal.Hand

end
-- ==== Proof.Spec.lean ====
import Idealize.ShloMosaic.PureOps.Ideal

noncomputable section

open scoped BigOperators

namespace Cert.Spec

open Idealize.ShloMosaic

def nRows : EReal := Ideal.ofBits .f32 0x49127C00#32

def eps : EReal := Ideal.ofBits .f32 0x3727C5AC#32

def fzero : EReal := Ideal.ofBits .f32 0x00000000#32

def lin {K : Nat} (x : Fin 600000 → Fin K → EReal) (w : Fin 128 → Fin K → EReal) (b : Fin 128 → EReal) :
    Fin 600000 → Fin 128 → EReal :=
  fun e o => (∑ k : Fin K, x e k * w o k) + b o

def colSum (h : Fin 600000 → Fin 128 → EReal) : Fin 128 → EReal := fun o => ∑ e : Fin 600000, h e o

def colSumSq (h : Fin 600000 → Fin 128 → EReal) : Fin 128 → EReal := fun o => ∑ e : Fin 600000, h e o * h e o

def mean (h : Fin 600000 → Fin 128 → EReal) : Fin 128 → EReal := fun o => Ideal.div (colSum h o) nRows

def varK (h : Fin 600000 → Fin 128 → EReal) : Fin 128 → EReal :=
  fun o => Ideal.div (colSumSq h o) nRows - mean h o * mean h o

def scaleK (h : Fin 600000 → Fin 128 → EReal) (g : Fin 128 → EReal) : Fin 128 → EReal :=
  fun o => g o * Ideal.rsqrt (varK h o + eps)

def shiftK (h : Fin 600000 → Fin 128 → EReal) (g be : Fin 128 → EReal) : Fin 128 → EReal :=
  fun o => be o - mean h o * scaleK h g o

def actK (h : Fin 600000 → Fin 128 → EReal) (g be : Fin 128 → EReal) : Fin 600000 → Fin 128 → EReal :=
  fun e o => max (h e o * scaleK h g o + shiftK h g be o) fzero

def varR (h : Fin 600000 → Fin 128 → EReal) : Fin 128 → EReal :=
  fun o => Ideal.div (∑ e : Fin 600000, (h e o - mean h o) * (h e o - mean h o)) nRows
def actR (h : Fin 600000 → Fin 128 → EReal) (g be : Fin 128 → EReal) : Fin 600000 → Fin 128 → EReal :=
  fun e o => max ((h e o - mean h o) * Ideal.rsqrt (varR h o + eps) * g o + be o) fzero

def lin1 (x : Fin 600000 → Fin 128 → EReal) (w : Fin 128 → EReal) (b : EReal) : Fin 600000 → EReal :=
  fun e => (∑ k : Fin 128, x e k * w k) + b

section
variable (ef : Fin 600000 → Fin 256 → EReal) (W1 : Fin 128 → Fin 256 → EReal) (b1 g1 be1 : Fin 128 → EReal)
  (W2 : Fin 128 → Fin 128 → EReal) (b2 g2 be2 : Fin 128 → EReal) (W3 : Fin 128 → EReal) (b3 : EReal)

def GK : Fin 600000 → EReal :=
  lin1 (actK (lin (actK (lin ef W1 b1) g1 be1) W2 b2) g2 be2) W3 b3

def GR : Fin 600000 → EReal :=
  lin1 (actR (lin (actR (lin ef W1 b1) g1 be1) W2 b2) g2 be2) W3 b3
end

end Cert.Spec

end
-- ==== Proof.KIHost1.lean ====
import proofs.«121905_j68624987455985_1_alg».proof.Proof.Gen.KernelIdeal.Launch
import proofs.«121905_j68624987455985_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HandV

open Idealize.ShloMosaic Idealize.ShloMosaic.ValueIdx
open Cert.KernelIdeal Cert.KernelIdeal.Gen

def scaleOf (s q g : EReal) : EReal :=
  g * Ideal.rsqrt ((Ideal.div q Cert.Spec.nRows - Ideal.div s Cert.Spec.nRows * Ideal.div s Cert.Spec.nRows) + Cert.Spec.eps)

def shiftOf (s q g be : EReal) : EReal :=
  be - Ideal.div s Cert.Spec.nRows * scaleOf s q g

theorem scaleOf_spec (h : Fin 600000 → Fin 128 → EReal) (g : Fin 128 → EReal) (o : Fin 128) :
    scaleOf (Cert.Spec.colSum h o) (Cert.Spec.colSumSq h o) (g o) = Cert.Spec.scaleK h g o := rfl

theorem shiftOf_spec (h : Fin 600000 → Fin 128 → EReal) (g be : Fin 128 → EReal) (o : Fin 128) :
    shiftOf (Cert.Spec.colSum h o) (Cert.Spec.colSumSq h o) (g o) (be o) = Cert.Spec.shiftK h g be o := rfl

abbrev nRow : FVec Ideal S1x128 .f32 := broadcastInDim S1x128 ![] bcast_S_S1x128 (constant (F := Ideal) S_ .f32 0x49127C00#32)

abbrev epsRow : FVec Ideal S1x128 .f32 := broadcastInDim S1x128 ![] bcast_S_S1x128 (constant (F := Ideal) S_ .f32 0x3727C5AC#32)

def scaleRow (s q g : FVec Ideal S1x128 .f32) : FVec Ideal S1x128 .f32 :=
  mulf g (Host.rsqrt (addf (subf (Host.divf q nRow) (mulf (Host.divf s nRow) (Host.divf s nRow))) epsRow))

def shiftRow (s q g b : FVec Ideal S1x128 .f32) : FVec Ideal S1x128 .f32 :=
  subf b (mulf (Host.divf s nRow) (scaleRow s q g))

theorem scaleRow_apply (s q g : FVec Ideal S1x128 .f32) (i : S1x128.Idx) :
    scaleRow s q g i = scaleOf (s i) (q i) (g i) := rfl

theorem shiftRow_apply (s q g b : FVec Ideal S1x128 .f32) (i : S1x128.Idx) :
    shiftRow s q g b i = shiftOf (s i) (q i) (g i) (b i) := rfl

theorem row_of_vec (x : FVec Ideal S128 .f32) (o : Fin 128) :
    shapeCast S1x128 x shapeCasts_S128_S1x128 (ix2 (0 : Fin 1) o) = x (ix1 o) :=
  shapeCast_a_1a_apply (a := 128) x shapeCasts_S128_S1x128 0 o

variable (W : Valuation τ sig (Elt Ideal))

theorem host1_scale_row :
    (StableHlo.after (hostOps1 (F := Ideal)) W (Proc.devRef .tc main_v48) : FVec Ideal S1x128 .f32)
      = scaleRow (W (Proc.devRef .tc main_v37_1)) (W (Proc.devRef .tc main_v37_2)) (shapeCast S1x128 (W (Proc.devRef .tc main_arg4)) shapeCasts_S128_S1x128) := by
  dsimp only [hostOps1]
  after_results_simp
  rfl

theorem host1_shift_row :
    (StableHlo.after (hostOps1 (F := Ideal)) W (Proc.devRef .tc main_v51) : FVec Ideal S1x128 .f32)
      = shiftRow (W (Proc.devRef .tc main_v37_1)) (W (Proc.devRef .tc main_v37_2)) (shapeCast S1x128 (W (Proc.devRef .tc main_arg4)) shapeCasts_S128_S1x128)
          (shapeCast S1x128 (W (Proc.devRef .tc main_arg5)) shapeCasts_S128_S1x128) := by
  dsimp only [hostOps1]
  after_results_simp
  rfl

theorem host1_scale (o : Fin 128) :
    StableHlo.after (hostOps1 (F := Ideal)) W (Proc.devRef .tc main_v48) (ix2 (0 : Fin 1) o)
      = scaleOf (W (Proc.devRef .tc main_v37_1) (ix2 (0 : Fin 1) o)) (W (Proc.devRef .tc main_v37_2) (ix2 (0 : Fin 1) o))
          (W (Proc.devRef .tc main_arg4) (ix1 o)) :=
  (congrFun (host1_scale_row W) (ix2 (0 : Fin 1) o)).trans
    ((scaleRow_apply _ _ _ _).trans (congrArg (scaleOf _ _) (row_of_vec (W (Proc.devRef .tc main_arg4)) o)))

theorem host1_shift (o : Fin 128) :
    StableHlo.after (hostOps1 (F := Ideal)) W (Proc.devRef .tc main_v51) (ix2 (0 : Fin 1) o)
      = shiftOf (W (Proc.devRef .tc main_v37_1) (ix2 (0 : Fin 1) o)) (W (Proc.devRef .tc main_v37_2) (ix2 (0 : Fin 1) o))
          (W (Proc.devRef .tc main_arg4) (ix1 o)) (W (Proc.devRef .tc main_arg5) (ix1 o)) :=
  (congrFun (host1_shift_row W) (ix2 (0 : Fin 1) o)).trans
    ((shiftRow_apply _ _ _ _ _).trans
      (congrArg₂ (shiftOf _ _) (row_of_vec (W (Proc.devRef .tc main_arg4)) o) (row_of_vec (W (Proc.devRef .tc main_arg5)) o)))

theorem host2_scale_row :
    (StableHlo.after (hostOps2 (F := Ideal)) W (Proc.devRef .tc main_v63) : FVec Ideal S1x128 .f32)
      = scaleRow (W (Proc.devRef .tc main_v52_1)) (W (Proc.devRef .tc main_v52_2)) (shapeCast S1x128 (W (Proc.devRef .tc main_arg8)) shapeCasts_S128_S1x128) := by
  dsimp only [hostOps2]
  after_results_simp
  rfl

theorem host2_shift_row :
    (StableHlo.after (hostOps2 (F := Ideal)) W (Proc.devRef .tc main_v66) : FVec Ideal S1x128 .f32)
      = shiftRow (W (Proc.devRef .tc main_v52_1)) (W (Proc.devRef .tc main_v52_2)) (shapeCast S1x128 (W (Proc.devRef .tc main_arg8)) shapeCasts_S128_S1x128)
          (shapeCast S1x128 (W (Proc.devRef .tc main_arg9)) shapeCasts_S128_S1x128) := by
  dsimp only [hostOps2]
  after_results_simp
  rfl

theorem host2_scale (o : Fin 128) :
    StableHlo.after (hostOps2 (F := Ideal)) W (Proc.devRef .tc main_v63) (ix2 (0 : Fin 1) o)
      = scaleOf (W (Proc.devRef .tc main_v52_1) (ix2 (0 : Fin 1) o)) (W (Proc.devRef .tc main_v52_2) (ix2 (0 : Fin 1) o))
          (W (Proc.devRef .tc main_arg8) (ix1 o)) :=
  (congrFun (host2_scale_row W) (ix2 (0 : Fin 1) o)).trans
    ((scaleRow_apply _ _ _ _).trans (congrArg (scaleOf _ _) (row_of_vec (W (Proc.devRef .tc main_arg8)) o)))

theorem host2_shift (o : Fin 128) :
    StableHlo.after (hostOps2 (F := Ideal)) W (Proc.devRef .tc main_v66) (ix2 (0 : Fin 1) o)
      = shiftOf (W (Proc.devRef .tc main_v52_1) (ix2 (0 : Fin 1) o)) (W (Proc.devRef .tc main_v52_2) (ix2 (0 : Fin 1) o))
          (W (Proc.devRef .tc main_arg8) (ix1 o)) (W (Proc.devRef .tc main_arg9) (ix1 o)) :=
  (congrFun (host2_shift_row W) (ix2 (0 : Fin 1) o)).trans
    ((shiftRow_apply _ _ _ _ _).trans
      (congrArg₂ (shiftOf _ _) (row_of_vec (W (Proc.devRef .tc main_arg8)) o) (row_of_vec (W (Proc.devRef .tc main_arg9)) o)))

theorem host3_result (e : Fin 600000) :
    StableHlo.after (hostOps3 (F := Ideal)) W (Proc.devRef .tc main_v69) (ix1 e)
      = W (Proc.devRef .tc main_v67) (ix2 e (0 : Fin 128)) := by
  dsimp only [hostOps3]
  after_results
  refine (shapeCast_apply _ shapeCasts_S600000x1_S600000 (ix1 e) (ix2 e (0 : Fin 1)) ?_).trans ?_
  · rw [Shape.rowMajor_val_two, Shape.rowMajor_val_one]
    show e.val * 1 + 0 = e.val
    omega
  · refine extractStridedSlice_apply _ _ _ (ix2 e (0 : Fin 1)) (ix2 e (0 : Fin 128)) fun a => ?_
    match a with
    | ⟨0, _⟩ => exact (Nat.zero_add _).symm
    | ⟨1, _⟩ => rfl

end Cert.KernelIdeal.HandV

end
-- ==== Proof.KIEf.lean ====
import proofs.«121905_j68624987455985_1_alg».proof.KernelIdeal
import proofs.«121905_j68624987455985_1_alg».proof.Proof.Gen.KernelIdeal
import Idealize.ShloMosaic.PureOps.Ideal

noncomputable section

namespace Cert.KernelIdeal.HandV

open Cert.KernelIdeal Cert.KernelIdeal.Gen Idealize.ShloMosaic

def wrapIdx (r : Vec Ideal S600000 .i32) : Vec Ideal S600000x1 .i32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

def edgeIdx0 (ei : Vec Ideal S2x600000 .i32) : Vec Ideal S600000x1 .i32 :=
  wrapIdx (shapeCast S600000 (extractStridedSlice S1x600000 ![0, 0] ei slices_S2x600000_S1x600000_0_0) shapeCasts_S1x600000_S600000)

def edgeIdx1 (ei : Vec Ideal S2x600000 .i32) : Vec Ideal S600000x1 .i32 :=
  wrapIdx (shapeCast S600000 (extractStridedSlice S1x600000 ![1, 0] ei slices_S2x600000_S1x600000_1_0) shapeCasts_S1x600000_S600000)

def efOf (x : Vec Ideal S50000x128 .f32) (ei : Vec Ideal S2x600000 .i32) : Vec Ideal S600000x256 .f32 :=
  concatenate S600000x256 1
    [⟨S600000x128, Host.gather gather_S50000x128_S600000x1_S600000x128_1_0_n_n_0_1_1128 x (edgeIdx0 ei)⟩,
     ⟨S600000x128, Host.gather gather_S50000x128_S600000x1_S600000x128_1_0_n_n_0_1_1128 x (edgeIdx1 ei)⟩]
    concatenates_S600000x128_S600000x128_S600000x256_d1

end Cert.KernelIdeal.HandV

end
-- ==== Proof.KIChase.lean ====
import proofs.«121905_j68624987455985_1_alg».proof.Proof.Gen.KernelIdeal.Launch
import proofs.«121905_j68624987455985_1_alg».proof.Proof.Gen.KernelIdeal.Regions
import proofs.«121905_j68624987455985_1_alg».proof.Proof.KIHost1
import proofs.«121905_j68624987455985_1_alg».proof.Proof.KIEf
import proofs.«121905_j68624987455985_1_alg».proof.Proof.Spec

set_option maxRecDepth 16384

noncomputable section

namespace Cert.KernelIdeal.HandV

open Idealize.ShloMosaic Idealize.ShloMosaic.ValueIdx
open Cert.KernelIdeal Cert.KernelIdeal.Gen

abbrev madK (h sc sh : EReal) : EReal := max (h * sc + sh) Cert.Spec.fzero

section Chase

variable (W0 W2 W4 W6 : Valuation τ sig (Elt Ideal))

local notation "W1" => StableHlo.after (hostOps0 (F := Ideal)) W0
local notation "W3" => StableHlo.after (hostOps1 (F := Ideal)) W2
local notation "W5" => StableHlo.after (hostOps2 (F := Ideal)) W4
local notation "W7" => StableHlo.after (hostOps3 (F := Ideal)) W6

local notation "efc" => (fun (e : Fin 600000) (k : Fin 256) => efOf (W0 (Proc.devRef Proc.tc main_arg0)) (W0 (Proc.devRef Proc.tc main_arg1)) (ix2 e k))
local notation "w1c" => (fun (o : Fin 128) (k : Fin 256) => W0 (Proc.devRef Proc.tc main_arg2) (ix2 o k))
local notation "b1c" => (fun (o : Fin 128) => W0 (Proc.devRef Proc.tc main_arg3) (ix1 o))
local notation "g1c" => (fun (o : Fin 128) => W0 (Proc.devRef Proc.tc main_arg4) (ix1 o))
local notation "be1c" => (fun (o : Fin 128) => W0 (Proc.devRef Proc.tc main_arg5) (ix1 o))
local notation "w2c" => (fun (o : Fin 128) (k : Fin 128) => W0 (Proc.devRef Proc.tc main_arg6) (ix2 o k))
local notation "b2c" => (fun (o : Fin 128) => W0 (Proc.devRef Proc.tc main_arg7) (ix1 o))
local notation "g2c" => (fun (o : Fin 128) => W0 (Proc.devRef Proc.tc main_arg8) (ix1 o))
local notation "be2c" => (fun (o : Fin 128) => W0 (Proc.devRef Proc.tc main_arg9) (ix1 o))
local notation "w3c" => (fun (k : Fin 128) => W0 (Proc.devRef Proc.tc main_arg10) (ix2 (0 : Fin 1) k))
local notation "b3c" => (W0 (Proc.devRef Proc.tc main_arg11) (ix1 (0 : Fin 1)))

structure Host0 : Prop where
  v19 : ∀ (e : Fin 600000) (k : Fin 256), W1 (Proc.devRef Proc.tc main_v19) (ix2 e k) = efOf (W0 (Proc.devRef Proc.tc main_arg0)) (W0 (Proc.devRef Proc.tc main_arg1)) (ix2 e k)
  v21 : ∀ (k : Fin 256) (o : Fin 128), W1 (Proc.devRef Proc.tc main_v21) (ix2 k o) = W0 (Proc.devRef Proc.tc main_arg2) (ix2 o k)
  v22 : ∀ o : Fin 128, W1 (Proc.devRef Proc.tc main_v22) (ix2 (0 : Fin 1) o) = W0 (Proc.devRef Proc.tc main_arg3) (ix1 o)
  v24 : ∀ (k o : Fin 128), W1 (Proc.devRef Proc.tc main_v24) (ix2 k o) = W0 (Proc.devRef Proc.tc main_arg6) (ix2 o k)
  v25 : ∀ o : Fin 128, W1 (Proc.devRef Proc.tc main_v25) (ix2 (0 : Fin 1) o) = W0 (Proc.devRef Proc.tc main_arg7) (ix1 o)
  v30 : ∀ k : Fin 128, W1 (Proc.devRef Proc.tc main_v30) (ix2 k (0 : Fin 128)) = W0 (Proc.devRef Proc.tc main_arg10) (ix2 (0 : Fin 1) k)
  v36 : W1 (Proc.devRef Proc.tc main_v36) (ix2 (0 : Fin 1) (0 : Fin 128)) = W0 (Proc.devRef Proc.tc main_arg11) (ix1 (0 : Fin 1))

structure Chain : Prop where
  ne2 : ∀ b : Ref sig .tc, (∀ w, Pipeline.arrRef spec0 w ≠ b) → W2 (Proc.devRef .tc b) = W1 (Proc.devRef .tc b)
  ne4 : ∀ b : Ref sig .tc, (∀ w, Pipeline.arrRef spec1 w ≠ b) → W4 (Proc.devRef .tc b) = W3 (Proc.devRef .tc b)
  ne6 : ∀ b : Ref sig .tc, (∀ w, Pipeline.arrRef spec2 w ≠ b) → W6 (Proc.devRef .tc b) = W5 (Proc.devRef .tc b)
  r0h : ∀ (e : Fin 600000) (o : Fin 128), W2 (Proc.devRef Proc.tc main_v37_0) (ix2 e o)
      = Cert.Spec.lin (K := 256) (fun e k => W1 (Proc.devRef Proc.tc main_v19) (ix2 e k)) (fun o k => W1 (Proc.devRef Proc.tc main_v21) (ix2 k o))
          (fun o => W1 (Proc.devRef Proc.tc main_v22) (ix2 (0 : Fin 1) o)) e o
  r0s : ∀ o : Fin 128, W2 (Proc.devRef Proc.tc main_v37_1) (ix2 (0 : Fin 1) o)
      = Cert.Spec.colSum (Cert.Spec.lin (K := 256) (fun e k => W1 (Proc.devRef Proc.tc main_v19) (ix2 e k)) (fun o k => W1 (Proc.devRef Proc.tc main_v21) (ix2 k o))
          (fun o => W1 (Proc.devRef Proc.tc main_v22) (ix2 (0 : Fin 1) o))) o
  r0q : ∀ o : Fin 128, W2 (Proc.devRef Proc.tc main_v37_2) (ix2 (0 : Fin 1) o)
      = Cert.Spec.colSumSq (Cert.Spec.lin (K := 256) (fun e k => W1 (Proc.devRef Proc.tc main_v19) (ix2 e k)) (fun o k => W1 (Proc.devRef Proc.tc main_v21) (ix2 k o))
          (fun o => W1 (Proc.devRef Proc.tc main_v22) (ix2 (0 : Fin 1) o))) o
  r1h : ∀ (e : Fin 600000) (o : Fin 128), W4 (Proc.devRef Proc.tc main_v52_0) (ix2 e o)
      = Cert.Spec.lin (K := 128)
          (fun e o => madK (W3 (Proc.devRef Proc.tc main_v37_0) (ix2 e o)) (W3 (Proc.devRef Proc.tc main_v48) (ix2 (0 : Fin 1) o)) (W3 (Proc.devRef Proc.tc main_v51) (ix2 (0 : Fin 1) o)))
          (fun o k => W3 (Proc.devRef Proc.tc main_v24) (ix2 k o)) (fun o => W3 (Proc.devRef Proc.tc main_v25) (ix2 (0 : Fin 1) o)) e o
  r1s : ∀ o : Fin 128, W4 (Proc.devRef Proc.tc main_v52_1) (ix2 (0 : Fin 1) o)
      = Cert.Spec.colSum (Cert.Spec.lin (K := 128)
          (fun e o => madK (W3 (Proc.devRef Proc.tc main_v37_0) (ix2 e o)) (W3 (Proc.devRef Proc.tc main_v48) (ix2 (0 : Fin 1) o)) (W3 (Proc.devRef Proc.tc main_v51) (ix2 (0 : Fin 1) o)))
          (fun o k => W3 (Proc.devRef Proc.tc main_v24) (ix2 k o)) (fun o => W3 (Proc.devRef Proc.tc main_v25) (ix2 (0 : Fin 1) o))) o
  r1q : ∀ o : Fin 128, W4 (Proc.devRef Proc.tc main_v52_2) (ix2 (0 : Fin 1) o)
      = Cert.Spec.colSumSq (Cert.Spec.lin (K := 128)
          (fun e o => madK (W3 (Proc.devRef Proc.tc main_v37_0) (ix2 e o)) (W3 (Proc.devRef Proc.tc main_v48) (ix2 (0 : Fin 1) o)) (W3 (Proc.devRef Proc.tc main_v51) (ix2 (0 : Fin 1) o)))
          (fun o k => W3 (Proc.devRef Proc.tc main_v24) (ix2 k o)) (fun o => W3 (Proc.devRef Proc.tc main_v25) (ix2 (0 : Fin 1) o))) o
  r2h : ∀ (e : Fin 600000) (o : Fin 128), W6 (Proc.devRef Proc.tc main_v67) (ix2 e o)
      = Cert.Spec.lin (K := 128)
          (fun e o => madK (W5 (Proc.devRef Proc.tc main_v52_0) (ix2 e o)) (W5 (Proc.devRef Proc.tc main_v63) (ix2 (0 : Fin 1) o)) (W5 (Proc.devRef Proc.tc main_v66) (ix2 (0 : Fin 1) o)))
          (fun o k => W5 (Proc.devRef Proc.tc main_v30) (ix2 k o)) (fun o => W5 (Proc.devRef Proc.tc main_v36) (ix2 (0 : Fin 1) o)) e o

variable {W0 W2 W4 W6}

theorem Chain.result (C : Chain W0 W2 W4 W6) (H : Host0 W0) (e : Fin 600000) :
    W7 (Proc.devRef Proc.tc main_v69) (ix1 e)
      = Cert.Spec.GK efc w1c b1c g1c be1c w2c b2c g2c be2c w3c b3c e := by

  have k1 : ∀ r : Ref sig .tc, r ∉ hostOps0_W → W1 (Proc.devRef .tc r) = W0 (Proc.devRef .tc r) :=
    fun r h => StableHlo.after_of_writes_sub (hostOps0 (F := Ideal)) W0 hostOps0_writes h
  have k3 : ∀ r : Ref sig .tc, r ∉ hostOps1_W → W3 (Proc.devRef .tc r) = W2 (Proc.devRef .tc r) :=
    fun r h => StableHlo.after_of_writes_sub (hostOps1 (F := Ideal)) W2 hostOps1_writes h
  have k5 : ∀ r : Ref sig .tc, r ∉ hostOps2_W → W5 (Proc.devRef .tc r) = W4 (Proc.devRef .tc r) :=
    fun r h => StableHlo.after_of_writes_sub (hostOps2 (F := Ideal)) W4 hostOps2_writes h

  have a4 : W2 (Proc.devRef Proc.tc main_arg4) = W0 (Proc.devRef Proc.tc main_arg4) := (C.ne2 main_arg4 (by decide)).trans (k1 main_arg4 (by decide))
  have a5 : W2 (Proc.devRef Proc.tc main_arg5) = W0 (Proc.devRef Proc.tc main_arg5) := (C.ne2 main_arg5 (by decide)).trans (k1 main_arg5 (by decide))
  have a8 : W4 (Proc.devRef Proc.tc main_arg8) = W0 (Proc.devRef Proc.tc main_arg8) :=
    (C.ne4 main_arg8 (by decide)).trans ((k3 main_arg8 (by decide)).trans ((C.ne2 main_arg8 (by decide)).trans (k1 main_arg8 (by decide))))
  have a9 : W4 (Proc.devRef Proc.tc main_arg9) = W0 (Proc.devRef Proc.tc main_arg9) :=
    (C.ne4 main_arg9 (by decide)).trans ((k3 main_arg9 (by decide)).trans ((C.ne2 main_arg9 (by decide)).trans (k1 main_arg9 (by decide))))

  have v24 : W3 (Proc.devRef Proc.tc main_v24) = W1 (Proc.devRef Proc.tc main_v24) := (k3 main_v24 (by decide)).trans (C.ne2 main_v24 (by decide))
  have v25 : W3 (Proc.devRef Proc.tc main_v25) = W1 (Proc.devRef Proc.tc main_v25) := (k3 main_v25 (by decide)).trans (C.ne2 main_v25 (by decide))
  have v30 : W5 (Proc.devRef Proc.tc main_v30) = W1 (Proc.devRef Proc.tc main_v30) :=
    (k5 main_v30 (by decide)).trans ((C.ne4 main_v30 (by decide)).trans ((k3 main_v30 (by decide)).trans (C.ne2 main_v30 (by decide))))
  have v36 : W5 (Proc.devRef Proc.tc main_v36) = W1 (Proc.devRef Proc.tc main_v36) :=
    (k5 main_v36 (by decide)).trans ((C.ne4 main_v36 (by decide)).trans ((k3 main_v36 (by decide)).trans (C.ne2 main_v36 (by decide))))

  have hA : (fun (e : Fin 600000) (k : Fin 256) => W1 (Proc.devRef Proc.tc main_v19) (ix2 e k)) = efc := funext fun e => funext fun k => H.v19 e k
  have hB : (fun (o : Fin 128) (k : Fin 256) => W1 (Proc.devRef Proc.tc main_v21) (ix2 k o)) = w1c := funext fun o => funext fun k => H.v21 k o
  have hC : (fun (o : Fin 128) => W1 (Proc.devRef Proc.tc main_v22) (ix2 (0 : Fin 1) o)) = b1c := funext fun o => H.v22 o
  have h1 : ∀ (e : Fin 600000) (o : Fin 128), W2 (Proc.devRef Proc.tc main_v37_0) (ix2 e o) = Cert.Spec.lin (K := 256) efc w1c b1c e o :=
    fun e o => by rw [C.r0h, hA, hB, hC]
  have s1 : ∀ o : Fin 128, W2 (Proc.devRef Proc.tc main_v37_1) (ix2 (0 : Fin 1) o) = Cert.Spec.colSum (Cert.Spec.lin (K := 256) efc w1c b1c) o :=
    fun o => by rw [C.r0s, hA, hB, hC]
  have q1 : ∀ o : Fin 128, W2 (Proc.devRef Proc.tc main_v37_2) (ix2 (0 : Fin 1) o) = Cert.Spec.colSumSq (Cert.Spec.lin (K := 256) efc w1c b1c) o :=
    fun o => by rw [C.r0q, hA, hB, hC]

  have y1 : (fun (e : Fin 600000) (o : Fin 128) =>
        madK (W3 (Proc.devRef Proc.tc main_v37_0) (ix2 e o)) (W3 (Proc.devRef Proc.tc main_v48) (ix2 (0 : Fin 1) o)) (W3 (Proc.devRef Proc.tc main_v51) (ix2 (0 : Fin 1) o)))
      = Cert.Spec.actK (Cert.Spec.lin (K := 256) efc w1c b1c) g1c be1c := by
    funext e o
    rw [k3 main_v37_0 (by decide), host1_scale W2 o, host1_shift W2 o, h1, s1, q1, a4, a5]
    rfl
  have hB2 : (fun (o : Fin 128) (k : Fin 128) => W3 (Proc.devRef Proc.tc main_v24) (ix2 k o)) = w2c := by
    rw [v24]; exact funext fun o => funext fun k => H.v24 k o
  have hC2 : (fun (o : Fin 128) => W3 (Proc.devRef Proc.tc main_v25) (ix2 (0 : Fin 1) o)) = b2c := by
    rw [v25]; exact funext fun o => H.v25 o

  have h2 : ∀ (e : Fin 600000) (o : Fin 128), W4 (Proc.devRef Proc.tc main_v52_0) (ix2 e o)
      = Cert.Spec.lin (K := 128) (Cert.Spec.actK (Cert.Spec.lin (K := 256) efc w1c b1c) g1c be1c) w2c b2c e o :=
    fun e o => by rw [C.r1h, y1, hB2, hC2]
  have s2 : ∀ o : Fin 128, W4 (Proc.devRef Proc.tc main_v52_1) (ix2 (0 : Fin 1) o)
      = Cert.Spec.colSum (Cert.Spec.lin (K := 128) (Cert.Spec.actK (Cert.Spec.lin (K := 256) efc w1c b1c) g1c be1c) w2c b2c) o :=
    fun o => by rw [C.r1s, y1, hB2, hC2]
  have q2 : ∀ o : Fin 128, W4 (Proc.devRef Proc.tc main_v52_2) (ix2 (0 : Fin 1) o)
      = Cert.Spec.colSumSq (Cert.Spec.lin (K := 128) (Cert.Spec.actK (Cert.Spec.lin (K := 256) efc w1c b1c) g1c be1c) w2c b2c) o :=
    fun o => by rw [C.r1q, y1, hB2, hC2]

  have y2 : (fun (e : Fin 600000) (o : Fin 128) =>
        madK (W5 (Proc.devRef Proc.tc main_v52_0) (ix2 e o)) (W5 (Proc.devRef Proc.tc main_v63) (ix2 (0 : Fin 1) o)) (W5 (Proc.devRef Proc.tc main_v66) (ix2 (0 : Fin 1) o)))
      = Cert.Spec.actK (Cert.Spec.lin (K := 128) (Cert.Spec.actK (Cert.Spec.lin (K := 256) efc w1c b1c) g1c be1c) w2c b2c) g2c be2c := by
    funext e o
    rw [k5 main_v52_0 (by decide), host2_scale W4 o, host2_shift W4 o, h2, s2, q2, a8, a9]
    rfl

  rw [host3_result W6 e, C.r2h, y2, v30, v36]
  unfold Cert.Spec.GK Cert.Spec.lin Cert.Spec.lin1
  dsimp only
  rw [H.v36]
  exact congrArg (· + b3c) (Finset.sum_congr rfl fun k _ => by rw [H.v30 k])

end Chase

end Cert.KernelIdeal.HandV

end
-- ==== Proof.KIRegion0Arr.lean ====
import proofs.«121905_j68624987455985_1_alg».proof.Proof.KIRegion0
import Idealize.ShloMosaic.Lib.Pipeline.Value
import Idealize.ShloMosaic.Lib.ValueIdx

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem idx0_3 : ∀ t : Fin cfg0.N, win0_3.index t (0 : Fin 2) = t.val ∧ win0_3.index t (1 : Fin 2) = 0 :=
  (by decide +kernel : ∀ t : Fin grid0.N, _)

def row0 (t : Fin cfg0.N) (r : Fin 6000) : Fin 600000 :=
  ⟨6000 * t.val + r.val, by have := lt_of_lt_of_eq t.isLt N_0; have := r.isLt; omega⟩

theorem emb0_3 (t : Fin cfg0.N) (r : Fin 6000) (o : Fin 128) :
    ((cfg0.win 3).blk t).view.emb (ix2 r o) = (ix2 (row0 t r) o : S600000x128.Idx) := by
  obtain ⟨e0, e1⟩ := idx0_3 t
  funext a
  apply Fin.ext
  match a with
  | ⟨0, _⟩ =>
    show win0_3.index t (0 : Fin 2) * 6000 + 1 * r.val = 6000 * t.val + r.val
    omega
  | ⟨1, _⟩ =>
    show win0_3.index t (1 : Fin 2) * 128 + 1 * o.val = o.val
    omega

theorem mem_blk0_3 (t : Fin cfg0.N) (i : S600000x128.Idx) :
    i ∈ ((cfg0.win 3).blk t).view.set ↔ ∀ a : Fin 2, win0_3.index t a * S6000x128.size a ≤ (i a).val ∧ (i a).val < win0_3.index t a * S6000x128.size a + S6000x128.size a := by
  show i ∈ ((View.whole main_v37_0).slice (win0_3.rect t)).set ↔ _
  rw [View.set_slice_whole, Rect.mem_set_unit]
  exact Iff.rfl

theorem cover0_3 (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have hlt : (i 0).val / 6000 < cfg0.N := by rw [show cfg0.N = 100 from N_0]; omega
  obtain ⟨e0, e1⟩ := idx0_3 ⟨(i 0).val / 6000, hlt⟩
  refine ⟨⟨(i 0).val / 6000, hlt⟩, flush0_3 _, (mem_blk0_3 _ i).mpr fun a => ?_⟩
  match a with
  | ⟨0, _⟩ =>
    show win0_3.index ⟨(i 0).val / 6000, hlt⟩ (0 : Fin 2) * 6000 ≤ (i 0).val
      ∧ (i 0).val < win0_3.index ⟨(i 0).val / 6000, hlt⟩ (0 : Fin 2) * 6000 + 6000
    rw [e0]
    show (i 0).val / 6000 * 6000 ≤ (i 0).val ∧ (i 0).val < (i 0).val / 6000 * 6000 + 6000
    omega
  | ⟨1, _⟩ =>
    show win0_3.index ⟨(i 0).val / 6000, hlt⟩ (1 : Fin 2) * 128 ≤ (i 1).val
      ∧ (i 1).val < win0_3.index ⟨(i 0).val / 6000, hlt⟩ (1 : Fin 2) * 128 + 128
    rw [e1]
    omega

section Large
variable (c : Dev nD) (G : Fin 600000 → Fin 128 → EReal)
  (hG : ∀ (t : Fin cfg0.N) (r : Fin 6000) (o : Fin 128),
    k0_pay6 (blkX V c t) (blkW V c t) (blkB V c t) (ix2 r o) = G (row0 t r) o)
include hG

theorem flushed0_3 (t : Fin cfg0.N) :
    (dat0 V c).flushed 3 t
      = ((cfg0.win 3).blk t).view.read (Elt Ideal) (fun i : S600000x128.Idx => G (i 0) (i 1)) := by
  show (cfg0.win 3).cut (grid0.coords t) ((dat0 V c).after 3 t) = _
  rw [after0_3]
  funext y
  rw [View.read_apply]
  show k0_pay6 (blkX V c t) (blkW V c t) (blkB V c t) y
    = (fun i : S600000x128.Idx => G (i 0) (i 1)) (((cfg0.win 3).blk t).view.emb y)
  obtain ⟨r, o, rfl⟩ : ∃ (r : Fin 6000) (o : Fin 128), y = ix2 r o := ⟨y 0, y 1, eq_ix2 y⟩
  rw [emb0_3, hG]

theorem arr0_3_of (j : S600000x128.Idx) : (dat0 V c).arrAt 3 cfg0.N j = G (j 0) (j 1) :=
  congrFun ((dat0 V c).arrAt_eq_of_cover 3 (fun i : S600000x128.Idx => G (i 0) (i 1))
    (fun t _ => flushed0_3 V c G hG t) cover0_3) j

end Large

def lastPt0 : Fin cfg0.N := ⟨99, by rw [show cfg0.N = 100 from N_0]; omega⟩

theorem idx0_4 : ∀ t : Fin cfg0.N, win0_4.index t (0 : Fin 2) = 0 ∧ win0_4.index t (1 : Fin 2) = 0 :=
  (by decide +kernel : ∀ t : Fin grid0.N, _)

theorem emb0_4 (t : Fin cfg0.N) (y : S1x128.Idx) : ((cfg0.win 4).blk t).view.emb y = y := by
  obtain ⟨e0, e1⟩ := idx0_4 t
  funext a
  apply Fin.ext
  match a with
  | ⟨0, _⟩ =>
    show win0_4.index t (0 : Fin 2) * 1 + 1 * (y 0).val = (y 0).val
    omega
  | ⟨1, _⟩ =>
    show win0_4.index t (1 : Fin 2) * 128 + 1 * (y 1).val = (y 1).val
    omega

theorem flushed0_4 (c : Dev nD) (t : Fin cfg0.N) (hf : (cfg0.win 4).flush t = true) :
    (dat0 V c).flushed 4 t = ((cfg0.win 4).blk t).view.read (Elt Ideal) (acc0s V c 99) := by
  have hN : t.val < 100 := lt_of_lt_of_eq t.isLt N_0
  have h99 : t.val = 99 := by have := (flush0_4 t).mp hf; omega
  show (cfg0.win 4).cut (grid0.coords t) ((dat0 V c).after 4 t) = _
  rw [after0_4, h99]
  funext y
  rw [View.read_apply]
  show acc0s V c 99 y = acc0s V c 99 (((cfg0.win 4).blk t).view.emb y)
  rw [emb0_4]

theorem cover0_4 (i : S1x128.Idx) :
    ∃ t : Fin cfg0.N, (cfg0.win 4).flush t = true ∧ i ∈ ((cfg0.win 4).blk t).view.set :=
  ⟨lastPt0, (flush0_4 lastPt0).mpr rfl, by
    have h := ((cfg0.win 4).blk lastPt0).view.emb_mem_set i
    rw [emb0_4] at h
    exact h⟩

theorem arr0_4_acc (c : Dev nD) : (dat0 V c).arrAt 4 cfg0.N = acc0s V c 99 :=
  (dat0 V c).arrAt_eq_of_cover 4 (acc0s V c 99) (flushed0_4 V c) cover0_4

theorem arr0_4_eq (c : Dev nD) (j : S1x128.Idx) :
    (dat0 V c).arrAt 4 cfg0.N j = acc0s V c 99 (ix2 (0 : Fin 1) (j 1)) := by
  rw [arr0_4_acc]
  congr 1
  funext a
  apply Fin.ext
  match a with
  | ⟨0, _⟩ =>
    have : (j 0).val < 1 := (j 0).isLt
    show (j 0).val = 0
    omega
  | ⟨1, _⟩ => rfl

theorem idx0_5 : ∀ t : Fin cfg0.N, win0_5.index t (0 : Fin 2) = 0 ∧ win0_5.index t (1 : Fin 2) = 0 :=
  (by decide +kernel : ∀ t : Fin grid0.N, _)

theorem emb0_5 (t : Fin cfg0.N) (y : S1x128.Idx) : ((cfg0.win 5).blk t).view.emb y = y := by
  obtain ⟨e0, e1⟩ := idx0_5 t
  funext a
  apply Fin.ext
  match a with
  | ⟨0, _⟩ =>
    show win0_5.index t (0 : Fin 2) * 1 + 1 * (y 0).val = (y 0).val
    omega
  | ⟨1, _⟩ =>
    show win0_5.index t (1 : Fin 2) * 128 + 1 * (y 1).val = (y 1).val
    omega

theorem flushed0_5 (c : Dev nD) (t : Fin cfg0.N) (hf : (cfg0.win 5).flush t = true) :
    (dat0 V c).flushed 5 t = ((cfg0.win 5).blk t).view.read (Elt Ideal) (acc0q V c 99) := by
  have hN : t.val < 100 := lt_of_lt_of_eq t.isLt N_0
  have h99 : t.val = 99 := by have := (flush0_5 t).mp hf; omega
  show (cfg0.win 5).cut (grid0.coords t) ((dat0 V c).after 5 t) = _
  rw [after0_5, h99]
  funext y
  rw [View.read_apply]
  show acc0q V c 99 y = acc0q V c 99 (((cfg0.win 5).blk t).view.emb y)
  rw [emb0_5]

theorem cover0_5 (i : S1x128.Idx) :
    ∃ t : Fin cfg0.N, (cfg0.win 5).flush t = true ∧ i ∈ ((cfg0.win 5).blk t).view.set :=
  ⟨lastPt0, (flush0_5 lastPt0).mpr rfl, by
    have h := ((cfg0.win 5).blk lastPt0).view.emb_mem_set i
    rw [emb0_5] at h
    exact h⟩

theorem arr0_5_acc (c : Dev nD) : (dat0 V c).arrAt 5 cfg0.N = acc0q V c 99 :=
  (dat0 V c).arrAt_eq_of_cover 5 (acc0q V c 99) (flushed0_5 V c) cover0_5

theorem arr0_5_eq (c : Dev nD) (j : S1x128.Idx) :
    (dat0 V c).arrAt 5 cfg0.N j = acc0q V c 99 (ix2 (0 : Fin 1) (j 1)) := by
  rw [arr0_5_acc]
  congr 1
  funext a
  apply Fin.ext
  match a with
  | ⟨0, _⟩ =>
    have : (j 0).val < 1 := (j 0).isLt
    show (j 0).val = 0
    omega
  | ⟨1, _⟩ => rfl

end Cert.KernelIdeal.HandV

end
-- ==== Proof.LibBlockSums.lean ====
import Mathlib.Algebra.BigOperators.Fin
import Mathlib.Data.Fintype.BigOperators
import Mathlib.Logic.Equiv.Fin.Basic
import Mathlib.Tactic.Ring

open scoped BigOperators

namespace Cert.BlockSums

variable {M : Type*} [AddCommMonoid M]

theorem block_index_lt {m n : ℕ} (t : Fin m) (r : Fin n) : n * t.val + r.val < m * n :=
  calc n * t.val + r.val < n * t.val + n := Nat.add_lt_add_left r.isLt _
    _ = (t.val + 1) * n := by ring
    _ ≤ m * n := Nat.mul_le_mul_right _ t.isLt

theorem sum_blocks (m n : ℕ) (f : Fin (m * n) → M) :
    ∑ e : Fin (m * n), f e = ∑ t : Fin m, ∑ r : Fin n, f ⟨n * t.val + r.val, block_index_lt t r⟩ := by
  rw [← Equiv.sum_comp finProdFinEquiv f, Fintype.sum_prod_type]
  refine Finset.sum_congr rfl fun t _ => Finset.sum_congr rfl fun r _ => congrArg f (Fin.ext ?_)
  show r.val + n * t.val = n * t.val + r.val
  exact Nat.add_comm _ _

theorem sum_blocks_600000 (f : Fin 600000 → M) :
    ∑ e : Fin 600000, f e
      = ∑ t : Fin 100, ∑ r : Fin 6000, f ⟨6000 * t.val + r.val, block_index_lt (m := 100) t r⟩ :=
  sum_blocks 100 6000 f

theorem running_sum_le (a b : ℕ → M) (z : M) (N : ℕ) (h0 : a 0 = z + b 0)
    (hs : ∀ n, n < N → a (n + 1) = a n + b (n + 1)) :
    ∀ n, n ≤ N → a n = z + ∑ t ∈ Finset.range (n + 1), b t := by
  intro n
  induction n with
  | zero => intro _; rw [h0, Finset.sum_range_one]
  | succ k ih =>
    intro hk
    rw [hs k hk, ih (Nat.le_of_succ_le hk), Finset.sum_range_succ _ (k + 1), add_assoc]

theorem running_sum (a b : ℕ → M) (z : M) (h0 : a 0 = z + b 0)
    (hs : ∀ n, a (n + 1) = a n + b (n + 1)) (n : ℕ) :
    a n = z + ∑ t ∈ Finset.range (n + 1), b t :=
  running_sum_le a b z n h0 (fun k _ => hs k) n le_rfl

theorem running_total_600000 (f : Fin 600000 → M) (a b : ℕ → M) (z : M)
    (hb : ∀ t : Fin 100, b t.val = ∑ r : Fin 6000, f ⟨6000 * t.val + r.val, block_index_lt (m := 100) t r⟩)
    (h0 : a 0 = z + b 0) (hs : ∀ n, n < 99 → a (n + 1) = a n + b (n + 1)) :
    a 99 = z + ∑ e : Fin 600000, f e := by
  rw [running_sum_le a b z 99 h0 hs 99 le_rfl, Finset.sum_range, sum_blocks_600000]
  exact congrArg (z + ·) (Finset.sum_congr rfl fun t _ => hb t)

end Cert.BlockSums
-- ==== Proof.KIPayloads.lean ====
import proofs.«121905_j68624987455985_1_alg».proof.Proof.Gen.KernelIdeal.Skeleton
import proofs.«121905_j68624987455985_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HandV

open Cert.KernelIdeal Cert.KernelIdeal.Gen Idealize.ShloMosaic Idealize.ShloMosaic.ValueIdx

theorem lhs0_0 (j : S6000x128.Idx) (q : dot_S6000x256_S256x128_S6000x128_1_0_0_1_n_n.contr.Idx) :
    (dot_S6000x256_S256x128_S6000x128_1_0_0_1_n_n.lhsIdx j q 0).val = (j 0).val := by
  unfold DotDims.lhsIdx
  rw [dif_neg (show ¬(0 : Fin S6000x256.rank) ∈ dot_S6000x256_S256x128_S6000x128_1_0_0_1_n_n.lhsBatch by decide),
    dif_pos (show (0 : Fin S6000x256.rank) ∈ dot_S6000x256_S256x128_S6000x128_1_0_0_1_n_n.lhsNonContracting by decide)]
  rfl
theorem lhs0_1 (j : S6000x128.Idx) (q : dot_S6000x256_S256x128_S6000x128_1_0_0_1_n_n.contr.Idx) :
    (dot_S6000x256_S256x128_S6000x128_1_0_0_1_n_n.lhsIdx j q 1).val = (q ⟨0, by decide⟩).val :=
  dot_S6000x256_S256x128_S6000x128_1_0_0_1_n_n.lhsIdx_val_of_single rfl j q
theorem rhs0_0 (j : S6000x128.Idx) (q : dot_S6000x256_S256x128_S6000x128_1_0_0_1_n_n.contr.Idx) :
    (dot_S6000x256_S256x128_S6000x128_1_0_0_1_n_n.rhsIdx j q 0).val = (q ⟨0, by decide⟩).val :=
  dot_S6000x256_S256x128_S6000x128_1_0_0_1_n_n.rhsIdx_val_of_single rfl j q
theorem rhs0_1 (j : S6000x128.Idx) (q : dot_S6000x256_S256x128_S6000x128_1_0_0_1_n_n.contr.Idx) :
    (dot_S6000x256_S256x128_S6000x128_1_0_0_1_n_n.rhsIdx j q 1).val = (j 1).val := by
  unfold DotDims.rhsIdx
  rw [dif_neg (show ¬(1 : Fin S256x128.rank) ∈ dot_S6000x256_S256x128_S6000x128_1_0_0_1_n_n.rhsBatch by decide),
    dif_pos (show (1 : Fin S256x128.rank) ∈ dot_S6000x256_S256x128_S6000x128_1_0_0_1_n_n.rhsNonContracting by decide)]
  rfl

theorem matmul256_apply (l : FVec Ideal S6000x256 .bf16) (w : FVec Ideal S256x128 .bf16) (r : Fin 6000) (o : Fin 128) :
    matmul dot_S6000x256_S256x128_S6000x128_1_0_0_1_n_n none l w (constant (F := Ideal) S6000x128 .f32 0x00000000#32) (ix2 r o)
      = ∑ k : Fin 256, l (ix2 r k) * w (ix2 k o) := by
  refine (Ideal.matmul_constant_zero_apply dot_S6000x256_S256x128_S6000x128_1_0_0_1_n_n none l w (ix2 r o)).trans ?_
  rw [← Equiv.sum_comp (contrEquiv1 dot_S6000x256_S256x128_S6000x128_1_0_0_1_n_n 256 rfl rfl).symm]
  refine Finset.sum_congr rfl fun c _ => ?_
  have hc := contrEquiv1_symm_val dot_S6000x256_S256x128_S6000x128_1_0_0_1_n_n 256 rfl rfl c
  have hl : dot_S6000x256_S256x128_S6000x128_1_0_0_1_n_n.lhsIdx (ix2 r o)
      ((contrEquiv1 dot_S6000x256_S256x128_S6000x128_1_0_0_1_n_n 256 rfl rfl).symm c) = ix2 r c := by
    funext a; refine Fin.ext ?_
    match a with
    | ⟨0, _⟩ => exact lhs0_0 _ _
    | ⟨1, _⟩ => exact (lhs0_1 _ _).trans hc
  have hr : dot_S6000x256_S256x128_S6000x128_1_0_0_1_n_n.rhsIdx (ix2 r o)
      ((contrEquiv1 dot_S6000x256_S256x128_S6000x128_1_0_0_1_n_n 256 rfl rfl).symm c) = ix2 c o := by
    funext a; refine Fin.ext ?_
    match a with
    | ⟨0, _⟩ => exact (rhs0_0 _ _).trans hc
    | ⟨1, _⟩ => exact rhs0_1 _ _
  rw [hl, hr]

theorem rowSum_apply (src : FVec Ideal S6000x128 .f32) (h : S6000x128.Reduces [0] S128) (hφ : FKind.Formats .f32)
    (hacc : (0x00000000#32 : BitVec 32) = 0x00000000#32) (o : Fin 128) :
    multiReduction (F := Ideal) .add [0] S128 src 0x00000000#32 h hφ hacc (ix1 o) = ∑ r : Fin 6000, src (ix2 r o) := by
  refine (Ideal.multiReduction_add_single src 0x00000000#32 h hφ hacc (ix1 o)).trans ?_
  refine Finset.sum_congr rfl fun r _ => congrArg src ?_
  funext a
  match a with
  | ⟨0, _⟩ => rfl
  | ⟨1, _⟩ => rfl

theorem k0_pay3_apply (v3 : FVec Ideal S6000x256 .bf16) (v5 : FVec Ideal S256x128 .bf16) (v8 : FVec Ideal S1x128 .f32)
    (r : Fin 6000) (o : Fin 128) :
    k0_pay3 (F := Ideal) v3 v5 v8 (ix2 r o) = (∑ k : Fin 256, v3 (ix2 r k) * v5 (ix2 k o)) + v8 (ix2 (0 : Fin 1) o) := by
  unfold k0_pay3
  rw [shapeCast_self v3, shapeCast_self v5, shapeCast_self v8]
  refine (addf_apply _ _ _).trans ?_
  rw [matmul256_apply v3 v5 r o, broadcastTo_1b_ab_apply v8 _ r o]

theorem k0_pay6_apply (v3 : FVec Ideal S6000x256 .bf16) (v5 : FVec Ideal S256x128 .bf16) (v8 : FVec Ideal S1x128 .f32)
    (r : Fin 6000) (o : Fin 128) :
    k0_pay6 (F := Ideal) v3 v5 v8 (ix2 r o) = (∑ k : Fin 256, v3 (ix2 r k) * v5 (ix2 k o)) + v8 (ix2 (0 : Fin 1) o) :=
  k0_pay3_apply v3 v5 v8 r o

theorem k0_pay4_apply (v3 : FVec Ideal S6000x256 .bf16) (v5 : FVec Ideal S256x128 .bf16) (v8 : FVec Ideal S1x128 .f32)
    (v12 : FVec Ideal S1x128 .f32) (o : Fin 128) :
    k0_pay4 (F := Ideal) v3 v5 v8 v12 (ix2 (0 : Fin 1) o)
      = v12 (ix2 (0 : Fin 1) o) + ∑ r : Fin 6000, k0_pay3 (F := Ideal) v3 v5 v8 (ix2 r o) := by
  unfold k0_pay4
  dsimp only
  rw [shapeCast_self]
  refine (addf_apply _ _ _).trans ?_
  refine congrArg (v12 (ix2 (0 : Fin 1) o) + ·) ?_
  refine (shapeCast_a_1a_apply _ _ (0 : Fin 1) o).trans ?_
  exact rowSum_apply _ _ _ _ o

theorem k0_pay5_apply (v3 : FVec Ideal S6000x256 .bf16) (v5 : FVec Ideal S256x128 .bf16) (v8 : FVec Ideal S1x128 .f32)
    (v19 : FVec Ideal S1x128 .f32) (o : Fin 128) :
    k0_pay5 (F := Ideal) v3 v5 v8 v19 (ix2 (0 : Fin 1) o)
      = v19 (ix2 (0 : Fin 1) o)
        + ∑ r : Fin 6000, k0_pay3 (F := Ideal) v3 v5 v8 (ix2 r o) * k0_pay3 (F := Ideal) v3 v5 v8 (ix2 r o) := by
  unfold k0_pay5
  dsimp only
  rw [shapeCast_self]
  refine (addf_apply _ _ _).trans ?_
  refine congrArg (v19 (ix2 (0 : Fin 1) o) + ·) ?_
  refine (shapeCast_a_1a_apply _ _ (0 : Fin 1) o).trans ?_
  exact rowSum_apply _ _ _ _ o

theorem k0_pay1_apply (j : S1x128.Idx) : k0_pay1 (F := Ideal) j = 0 := by
  unfold k0_pay1
  rw [shapeCast_self]
  exact Ideal.ofBits_zero_f32

theorem k0_pay2_apply (j : S1x128.Idx) : k0_pay2 (F := Ideal) j = 0 := by
  unfold k0_pay2
  rw [shapeCast_self]
  exact Ideal.ofBits_zero_f32

theorem lhs1_0 (j : S6000x128.Idx) (q : dot_S6000x128_S128x128_S6000x128_1_0_0_1_n_n.contr.Idx) :
    (dot_S6000x128_S128x128_S6000x128_1_0_0_1_n_n.lhsIdx j q 0).val = (j 0).val := by
  unfold DotDims.lhsIdx
  rw [dif_neg (show ¬(0 : Fin S6000x128.rank) ∈ dot_S6000x128_S128x128_S6000x128_1_0_0_1_n_n.lhsBatch by decide),
    dif_pos (show (0 : Fin S6000x128.rank) ∈ dot_S6000x128_S128x128_S6000x128_1_0_0_1_n_n.lhsNonContracting by decide)]
  rfl
theorem lhs1_1 (j : S6000x128.Idx) (q : dot_S6000x128_S128x128_S6000x128_1_0_0_1_n_n.contr.Idx) :
    (dot_S6000x128_S128x128_S6000x128_1_0_0_1_n_n.lhsIdx j q 1).val = (q ⟨0, by decide⟩).val :=
  dot_S6000x128_S128x128_S6000x128_1_0_0_1_n_n.lhsIdx_val_of_single rfl j q
theorem rhs1_0 (j : S6000x128.Idx) (q : dot_S6000x128_S128x128_S6000x128_1_0_0_1_n_n.contr.Idx) :
    (dot_S6000x128_S128x128_S6000x128_1_0_0_1_n_n.rhsIdx j q 0).val = (q ⟨0, by decide⟩).val :=
  dot_S6000x128_S128x128_S6000x128_1_0_0_1_n_n.rhsIdx_val_of_single rfl j q
theorem rhs1_1 (j : S6000x128.Idx) (q : dot_S6000x128_S128x128_S6000x128_1_0_0_1_n_n.contr.Idx) :
    (dot_S6000x128_S128x128_S6000x128_1_0_0_1_n_n.rhsIdx j q 1).val = (j 1).val := by
  unfold DotDims.rhsIdx
  rw [dif_neg (show ¬(1 : Fin S128x128.rank) ∈ dot_S6000x128_S128x128_S6000x128_1_0_0_1_n_n.rhsBatch by decide),
    dif_pos (show (1 : Fin S128x128.rank) ∈ dot_S6000x128_S128x128_S6000x128_1_0_0_1_n_n.rhsNonContracting by decide)]
  rfl

theorem matmul128_apply (l : FVec Ideal S6000x128 .bf16) (w : FVec Ideal S128x128 .bf16) (r : Fin 6000) (o : Fin 128) :
    matmul dot_S6000x128_S128x128_S6000x128_1_0_0_1_n_n none l w (constant (F := Ideal) S6000x128 .f32 0x00000000#32) (ix2 r o)
      = ∑ k : Fin 128, l (ix2 r k) * w (ix2 k o) := by
  refine (Ideal.matmul_constant_zero_apply dot_S6000x128_S128x128_S6000x128_1_0_0_1_n_n none l w (ix2 r o)).trans ?_
  rw [← Equiv.sum_comp (contrEquiv1 dot_S6000x128_S128x128_S6000x128_1_0_0_1_n_n 128 rfl rfl).symm]
  refine Finset.sum_congr rfl fun c _ => ?_
  have hc := contrEquiv1_symm_val dot_S6000x128_S128x128_S6000x128_1_0_0_1_n_n 128 rfl rfl c
  have hl : dot_S6000x128_S128x128_S6000x128_1_0_0_1_n_n.lhsIdx (ix2 r o)
      ((contrEquiv1 dot_S6000x128_S128x128_S6000x128_1_0_0_1_n_n 128 rfl rfl).symm c) = ix2 r c := by
    funext a; refine Fin.ext ?_
    match a with
    | ⟨0, _⟩ => exact lhs1_0 _ _
    | ⟨1, _⟩ => exact (lhs1_1 _ _).trans hc
  have hr : dot_S6000x128_S128x128_S6000x128_1_0_0_1_n_n.rhsIdx (ix2 r o)
      ((contrEquiv1 dot_S6000x128_S128x128_S6000x128_1_0_0_1_n_n 128 rfl rfl).symm c) = ix2 c o := by
    funext a; refine Fin.ext ?_
    match a with
    | ⟨0, _⟩ => exact (rhs1_0 _ _).trans hc
    | ⟨1, _⟩ => exact rhs1_1 _ _
  rw [hl, hr]

theorem rectified_apply (x : FVec Ideal S6000x128 .bf16) (s t : FVec Ideal S1x128 .f32)
    (hb : S1x128.Broadcasts S6000x128) (h1 : FTy.bits .bf16 < FTy.bits .f32) (r : Fin 6000) (k : Fin 128) :
    (truncf .bf16 (maximumf (addf (mulf (extf .f32 x h1) (broadcastTo S6000x128 s hb)) (broadcastTo S6000x128 t hb))
        (broadcast S6000x128 (Scalar.ofBits (F := Ideal) .f32 0x00000000#32))) h1 : FVec Ideal S6000x128 .bf16) (ix2 r k)
      = max (x (ix2 r k) * s (ix2 (0 : Fin 1) k) + t (ix2 (0 : Fin 1) k)) Cert.Spec.fzero := by
  show max (x (ix2 r k) * broadcastTo S6000x128 s hb (ix2 r k) + broadcastTo S6000x128 t hb (ix2 r k)) _ = _
  rw [broadcastTo_1b_ab_apply s hb r k, broadcastTo_1b_ab_apply t hb r k]
  rfl

theorem k1_pay5_apply (v3 : FVec Ideal S6000x128 .bf16) (v6 v10 : FVec Ideal S1x128 .f32) (v17 : FVec Ideal S128x128 .bf16)
    (v20 : FVec Ideal S1x128 .f32) (r : Fin 6000) (o : Fin 128) :
    k1_pay5 (F := Ideal) v3 v6 v10 v17 v20 (ix2 r o)
      = (∑ k : Fin 128, max (v3 (ix2 r k) * v6 (ix2 (0 : Fin 1) k) + v10 (ix2 (0 : Fin 1) k)) Cert.Spec.fzero * v17 (ix2 k o))
        + v20 (ix2 (0 : Fin 1) o) := by
  unfold k1_pay5
  rw [shapeCast_self v3, shapeCast_self v6, shapeCast_self v10, shapeCast_self v17, shapeCast_self v20]
  refine (addf_apply _ _ _).trans ?_
  rw [matmul128_apply _ v17 r o, broadcastTo_1b_ab_apply v20 _ r o]
  refine congrArg (· + v20 (ix2 (0 : Fin 1) o)) (Finset.sum_congr rfl fun k _ => ?_)
  rw [rectified_apply v3 v6 v10 _ _ r k]

theorem k1_pay6_apply (v3 : FVec Ideal S6000x128 .bf16) (v6 v10 : FVec Ideal S1x128 .f32) (v17 : FVec Ideal S128x128 .bf16)
    (v20 v24 : FVec Ideal S1x128 .f32) (o : Fin 128) :
    k1_pay6 (F := Ideal) v3 v6 v10 v17 v20 v24 (ix2 (0 : Fin 1) o)
      = v24 (ix2 (0 : Fin 1) o) + ∑ r : Fin 6000, k1_pay5 (F := Ideal) v3 v6 v10 v17 v20 (ix2 r o) := by
  unfold k1_pay6
  dsimp only
  rw [shapeCast_self]
  refine (addf_apply _ _ _).trans ?_
  refine congrArg (v24 (ix2 (0 : Fin 1) o) + ·) ?_
  refine (shapeCast_a_1a_apply _ _ (0 : Fin 1) o).trans ?_
  exact rowSum_apply _ _ _ _ o

theorem k1_pay7_apply (v3 : FVec Ideal S6000x128 .bf16) (v6 v10 : FVec Ideal S1x128 .f32) (v17 : FVec Ideal S128x128 .bf16)
    (v20 : FVec Ideal S1x128 .f32) (o : Fin 128) :
    k1_pay7 (F := Ideal) v3 v6 v10 v17 v20 (ix2 (0 : Fin 1) o)
      = ∑ r : Fin 6000, k1_pay5 (F := Ideal) v3 v6 v10 v17 v20 (ix2 r o) * k1_pay5 (F := Ideal) v3 v6 v10 v17 v20 (ix2 r o) := by
  unfold k1_pay7
  dsimp only
  refine (shapeCast_a_1a_apply _ _ (0 : Fin 1) o).trans ?_
  exact rowSum_apply _ _ _ _ o

theorem k1_pay1_apply (v31 v34 : FVec Ideal S1x128 .f32) (j : S1x128.Idx) :
    k1_pay1 (F := Ideal) v31 v34 j = v31 j + v34 j := by
  unfold k1_pay1
  rw [shapeCast_self]
  rfl

theorem k1_pay2_eq (v23 : FVec Ideal S6000x128 .f32) :
    (k1_pay2 (F := Ideal) v23 : S6000x128.Idx → EReal) = v23 := rfl

theorem k1_pay3_apply (j : S1x128.Idx) : k1_pay3 (F := Ideal) j = 0 := by
  unfold k1_pay3
  rw [shapeCast_self]
  exact Ideal.ofBits_zero_f32

theorem k1_pay4_apply (j : S1x128.Idx) : k1_pay4 (F := Ideal) j = 0 := by
  unfold k1_pay4
  rw [shapeCast_self]
  exact Ideal.ofBits_zero_f32

theorem k2_pay1_apply (v0 : FVec Ideal S6000x128 .bf16) (v3 v7 : FVec Ideal S1x128 .f32) (v14 : FVec Ideal S128x128 .bf16)
    (v17 : FVec Ideal S1x128 .f32) (r : Fin 6000) (o : Fin 128) :
    k2_pay1 (F := Ideal) v0 v3 v7 v14 v17 (ix2 r o)
      = (∑ k : Fin 128, max (v0 (ix2 r k) * v3 (ix2 (0 : Fin 1) k) + v7 (ix2 (0 : Fin 1) k)) Cert.Spec.fzero * v14 (ix2 k o))
        + v17 (ix2 (0 : Fin 1) o) := by
  unfold k2_pay1
  rw [shapeCast_self v0, shapeCast_self v3, shapeCast_self v7, shapeCast_self v14, shapeCast_self v17]
  refine (addf_apply _ _ _).trans ?_
  rw [matmul128_apply _ v14 r o, broadcastTo_1b_ab_apply v17 _ r o]
  refine congrArg (· + v17 (ix2 (0 : Fin 1) o)) (Finset.sum_congr rfl fun k _ => ?_)
  rw [rectified_apply v0 v3 v7 _ _ r k]

end Cert.KernelIdeal.HandV

end
-- ==== Proof.KIRegion0Value.lean ====
import proofs.«121905_j68624987455985_1_alg».proof.Proof.KIRegion0Arr
import proofs.«121905_j68624987455985_1_alg».proof.Proof.Spec
import proofs.«121905_j68624987455985_1_alg».proof.Proof.LibBlockSums
import proofs.«121905_j68624987455985_1_alg».proof.Proof.KIPayloads
import Idealize.ShloMosaic.Lib.ValueIdx
import Idealize.ShloMosaic.Lib.Pipeline.Value

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem blkX_apply (t : Fin cfg0.N) (r : Fin 6000) (k : Fin 256) :
    blkX V c t (ix2 r k) = V c main_v19 (ix2 (row0 t r) k) := by
  obtain ⟨e0, e1⟩ := idx0_0 t
  unfold blkX iblk0
  rw [View.read_apply]
  show V c main_v19 _ = V c main_v19 _
  congr 1
  funext a; apply Fin.ext
  match a with
  | ⟨0, _⟩ => show win0_0.index t (0 : Fin 2) * 6000 + 1 * r.val = 6000 * t.val + r.val; rw [e0]; omega
  | ⟨1, _⟩ => show win0_0.index t (1 : Fin 2) * 256 + 1 * k.val = k.val; rw [e1]; omega

theorem blkW_apply (t : Fin cfg0.N) (k : Fin 256) (o : Fin 128) :
    blkW V c t (ix2 k o) = V c main_v21 (ix2 k o) := by
  obtain ⟨e0, e1⟩ := idx0_1 t
  unfold blkW iblk0
  rw [View.read_apply]
  show V c main_v21 _ = V c main_v21 _
  congr 1
  funext a; apply Fin.ext
  match a with
  | ⟨0, _⟩ => show win0_1.index t (0 : Fin 2) * 256 + 1 * k.val = k.val; rw [e0]; omega
  | ⟨1, _⟩ => show win0_1.index t (1 : Fin 2) * 128 + 1 * o.val = o.val; rw [e1]; omega

theorem blkB_apply (t : Fin cfg0.N) (z : Fin 1) (o : Fin 128) :
    blkB V c t (ix2 z o) = V c main_v22 (ix2 z o) := by
  obtain ⟨e0, e1⟩ := idx0_2 t
  unfold blkB iblk0
  rw [View.read_apply]
  show V c main_v22 _ = V c main_v22 _
  congr 1
  funext a; apply Fin.ext
  match a with
  | ⟨0, _⟩ => show win0_2.index t (0 : Fin 2) * 1 + 1 * z.val = z.val; rw [e0]; omega
  | ⟨1, _⟩ => show win0_2.index t (1 : Fin 2) * 128 + 1 * o.val = o.val; rw [e1]; omega

abbrev xA (e : Fin 600000) (k : Fin 256) : EReal := V c main_v19 (ix2 e k)
abbrev wA (o : Fin 128) (k : Fin 256) : EReal := V c main_v21 (ix2 k o)
abbrev bA (o : Fin 128) : EReal := V c main_v22 (ix2 0 o)

abbrev hA : Fin 600000 → Fin 128 → EReal := Cert.Spec.lin (K := 256) (xA V c) (wA V c) (bA V c)

theorem pay3_blk (t : Fin cfg0.N) (r : Fin 6000) (o : Fin 128) :
    k0_pay3 (blkX V c t) (blkW V c t) (blkB V c t) (ix2 r o) = hA V c (row0 t r) o := by
  refine (k0_pay3_apply (blkX V c t) (blkW V c t) (blkB V c t) r o).trans ?_
  show _ = (∑ k : Fin 256, xA V c (row0 t r) k * wA V c o k) + bA V c o
  rw [blkB_apply]
  exact congrArg (· + bA V c o) (Finset.sum_congr rfl fun k _ => by rw [blkX_apply, blkW_apply])

theorem pay6_blk (t : Fin cfg0.N) (r : Fin 6000) (o : Fin 128) :
    k0_pay6 (blkX V c t) (blkW V c t) (blkB V c t) (ix2 r o) = hA V c (row0 t r) o := by
  refine (k0_pay6_apply (blkX V c t) (blkW V c t) (blkB V c t) r o).trans ?_
  show _ = (∑ k : Fin 256, xA V c (row0 t r) k * wA V c o k) + bA V c o
  rw [blkB_apply]
  exact congrArg (· + bA V c o) (Finset.sum_congr rfl fun k _ => by rw [blkX_apply, blkW_apply])

theorem row0_pt0 (t : Fin 100) (r : Fin 6000) :
    row0 (pt0 t.val) r = ⟨6000 * t.val + r.val, Cert.BlockSums.block_index_lt (m := 100) t r⟩ :=
  Fin.ext (by show 6000 * (t.val % 100) + r.val = 6000 * t.val + r.val; rw [Nat.mod_eq_of_lt t.isLt])

theorem acc0s_last (o : Fin 128) : acc0s V c 99 (ix2 0 o) = Cert.Spec.colSum (hA V c) o := by
  have h := Cert.BlockSums.running_total_600000 (M := EReal) (fun e => hA V c e o)
    (fun n => acc0s V c n (ix2 0 o)) (fun n => ∑ r : Fin 6000, hA V c (row0 (pt0 n) r) o) 0
    (fun t => Finset.sum_congr rfl fun r _ => by rw [row0_pt0])
    (by
      show acc0s V c 0 (ix2 0 o) = _
      rw [acc0s_zero]
      refine (k0_pay4_apply (blkX V c (pt0 0)) (blkW V c (pt0 0)) (blkB V c (pt0 0)) (k0_pay1 (F := Ideal)) o).trans ?_
      rw [k0_pay1_apply]
      exact congrArg (0 + ·) (Finset.sum_congr rfl fun r _ => pay3_blk V c (pt0 0) r o))
    (fun n _ => by
      show acc0s V c (n + 1) (ix2 0 o) = _
      rw [acc0s_succ]
      refine (k0_pay4_apply (blkX V c (pt0 (n + 1))) (blkW V c (pt0 (n + 1))) (blkB V c (pt0 (n + 1))) (acc0s V c n) o).trans ?_
      exact congrArg (acc0s V c n (ix2 0 o) + ·) (Finset.sum_congr rfl fun r _ => pay3_blk V c (pt0 (n + 1)) r o))
  exact h.trans (zero_add _)

theorem acc0q_last (o : Fin 128) : acc0q V c 99 (ix2 0 o) = Cert.Spec.colSumSq (hA V c) o := by
  have h := Cert.BlockSums.running_total_600000 (M := EReal) (fun e => hA V c e o * hA V c e o)
    (fun n => acc0q V c n (ix2 0 o)) (fun n => ∑ r : Fin 6000, hA V c (row0 (pt0 n) r) o * hA V c (row0 (pt0 n) r) o) 0
    (fun t => Finset.sum_congr rfl fun r _ => by rw [row0_pt0])
    (by
      show acc0q V c 0 (ix2 0 o) = _
      rw [acc0q_zero]
      refine (k0_pay5_apply (blkX V c (pt0 0)) (blkW V c (pt0 0)) (blkB V c (pt0 0)) (k0_pay2 (F := Ideal)) o).trans ?_
      rw [k0_pay2_apply]
      exact congrArg (0 + ·) (Finset.sum_congr rfl fun r _ => by rw [pay3_blk]))
    (fun n _ => by
      show acc0q V c (n + 1) (ix2 0 o) = _
      rw [acc0q_succ]
      refine (k0_pay5_apply (blkX V c (pt0 (n + 1))) (blkW V c (pt0 (n + 1))) (blkB V c (pt0 (n + 1))) (acc0q V c n) o).trans ?_
      exact congrArg (acc0q V c n (ix2 0 o) + ·) (Finset.sum_congr rfl fun r _ => by rw [pay3_blk]))
  exact h.trans (zero_add _)

theorem arr0_3 : ∀ j, (dat0 V c).arrAt 3 cfg0.N j
    = Cert.Spec.lin (K := 256) (fun e k => V c main_v19 (ix2 e k)) (fun o k => V c main_v21 (ix2 k o)) (fun o => V c main_v22 (ix2 0 o)) (j 0) (j 1) :=
  arr0_3_of V c (hA V c) (pay6_blk V c)

theorem arr0_4 : ∀ j, (dat0 V c).arrAt 4 cfg0.N j
    = Cert.Spec.colSum (Cert.Spec.lin (K := 256) (fun e k => V c main_v19 (ix2 e k)) (fun o k => V c main_v21 (ix2 k o)) (fun o => V c main_v22 (ix2 0 o))) (j 1) :=
  fun j => (arr0_4_eq V c j).trans (acc0s_last V c (j 1))

theorem arr0_5 : ∀ j, (dat0 V c).arrAt 5 cfg0.N j
    = Cert.Spec.colSumSq (Cert.Spec.lin (K := 256) (fun e k => V c main_v19 (ix2 e k)) (fun o k => V c main_v21 (ix2 k o)) (fun o => V c main_v22 (ix2 0 o))) (j 1) :=
  fun j => (arr0_5_eq V c j).trans (acc0q_last V c (j 1))

end Cert.KernelIdeal.HandV

end
-- ==== Proof.KIRegion1Value.lean ====
import proofs.«121905_j68624987455985_1_alg».proof.Proof.KIRegion1
import proofs.«121905_j68624987455985_1_alg».proof.Proof.Spec
import proofs.«121905_j68624987455985_1_alg».proof.Proof.LibBlockSums
import proofs.«121905_j68624987455985_1_alg».proof.Proof.KIPayloads
import Idealize.ShloMosaic.Lib.Pipeline.Value
import Idealize.ShloMosaic.Lib.ValueIdx
import Idealize.ShloMosaic.Lib.Tactic

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem idx_facts1 : ∀ t : Fin cfg1.N,
    (win1_0.index t 0 = t.val ∧ win1_0.index t 1 = 0) ∧ (win1_1.index t 0 = 0 ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = t.val ∧ win1_5.index t 1 = 0)
    ∧ (win1_6.index t 0 = 0 ∧ win1_6.index t 1 = 0) ∧ (win1_7.index t 0 = 0 ∧ win1_7.index t 1 = 0) :=
  (by decide +kernel : ∀ t : Fin grid1.N, _)

theorem row_lt1 (t : Fin cfg1.N) (r : Fin 6000) : 6000 * t.val + r.val < 600000 := by
  have := lt_of_lt_of_eq t.isLt (show cfg1.N = 100 from N_1); have := r.isLt; omega

theorem hblk1_apply (t : Fin cfg1.N) (r : Fin 6000) (k : Fin 128) :
    hblk1 V c t (ix2 r k) = (V c main_v37_0 : S600000x128.Idx → EReal) (ix2 ⟨6000 * t.val + r.val, row_lt1 t r⟩ k) := by
  unfold hblk1 iblk1
  rw [View.read_apply]
  show V c main_v37_0 _ = V c main_v37_0 _
  congr 1
  funext a
  apply Fin.ext
  match a with
  | ⟨0, _⟩ => show win1_0.index t 0 * 6000 + 1 * r.val = 6000 * t.val + r.val; rw [(idx_facts1 t).1.1]; omega
  | ⟨1, _⟩ => show win1_0.index t 1 * 128 + 1 * k.val = k.val; rw [(idx_facts1 t).1.2]; omega

theorem scblk1_apply (t : Fin cfg1.N) (o : Fin 128) :
    scblk1 V c t (ix2 0 o) = (V c main_v48 : S1x128.Idx → EReal) (ix2 0 o) := by
  unfold scblk1 iblk1
  rw [View.read_apply]
  show V c main_v48 _ = V c main_v48 _
  congr 1
  funext a
  apply Fin.ext
  match a with
  | ⟨0, _⟩ => show win1_1.index t 0 * 1 + 1 * 0 = 0; rw [(idx_facts1 t).2.1.1]
  | ⟨1, _⟩ => show win1_1.index t 1 * 128 + 1 * o.val = o.val; rw [(idx_facts1 t).2.1.2]; omega
theorem shblk1_apply (t : Fin cfg1.N) (o : Fin 128) :
    shblk1 V c t (ix2 0 o) = (V c main_v51 : S1x128.Idx → EReal) (ix2 0 o) := by
  unfold shblk1 iblk1
  rw [View.read_apply]
  show V c main_v51 _ = V c main_v51 _
  congr 1
  funext a
  apply Fin.ext
  match a with
  | ⟨0, _⟩ => show win1_2.index t 0 * 1 + 1 * 0 = 0; rw [(idx_facts1 t).2.2.1.1]
  | ⟨1, _⟩ => show win1_2.index t 1 * 128 + 1 * o.val = o.val; rw [(idx_facts1 t).2.2.1.2]; omega
theorem wblk1_apply (t : Fin cfg1.N) (k o : Fin 128) :
    wblk1 V c t (ix2 k o) = (V c main_v24 : S128x128.Idx → EReal) (ix2 k o) := by
  unfold wblk1 iblk1
  rw [View.read_apply]
  show V c main_v24 _ = V c main_v24 _
  congr 1
  funext a
  apply Fin.ext
  match a with
  | ⟨0, _⟩ => show win1_3.index t 0 * 128 + 1 * k.val = k.val; rw [(idx_facts1 t).2.2.2.1.1]; omega
  | ⟨1, _⟩ => show win1_3.index t 1 * 128 + 1 * o.val = o.val; rw [(idx_facts1 t).2.2.2.1.2]; omega
theorem bblk1_apply (t : Fin cfg1.N) (o : Fin 128) :
    bblk1 V c t (ix2 0 o) = (V c main_v25 : S1x128.Idx → EReal) (ix2 0 o) := by
  unfold bblk1 iblk1
  rw [View.read_apply]
  show V c main_v25 _ = V c main_v25 _
  congr 1
  funext a
  apply Fin.ext
  match a with
  | ⟨0, _⟩ => show win1_4.index t 0 * 1 + 1 * 0 = 0; rw [(idx_facts1 t).2.2.2.2.1.1]
  | ⟨1, _⟩ => show win1_4.index t 1 * 128 + 1 * o.val = o.val; rw [(idx_facts1 t).2.2.2.2.1.2]; omega

theorem emb1_5 (t : Fin cfg1.N) (r : Fin 6000) (o : Fin 128) :
    ((cfg1.win 5).blk t).view.emb (ix2 r o) = (ix2 ⟨6000 * t.val + r.val, row_lt1 t r⟩ o : S600000x128.Idx) := by
  funext a
  apply Fin.ext
  match a with
  | ⟨0, _⟩ => show win1_5.index t 0 * 6000 + 1 * r.val = 6000 * t.val + r.val; rw [(idx_facts1 t).2.2.2.2.2.1.1]; omega
  | ⟨1, _⟩ => show win1_5.index t 1 * 128 + 1 * o.val = o.val; rw [(idx_facts1 t).2.2.2.2.2.1.2]; omega
theorem emb1_6 (t : Fin cfg1.N) (o : Fin 128) :
    ((cfg1.win 6).blk t).view.emb (ix2 0 o) = (ix2 0 o : S1x128.Idx) := by
  funext a
  apply Fin.ext
  match a with
  | ⟨0, _⟩ => show win1_6.index t 0 * 1 + 1 * 0 = 0; rw [(idx_facts1 t).2.2.2.2.2.2.1.1]
  | ⟨1, _⟩ => show win1_6.index t 1 * 128 + 1 * o.val = o.val; rw [(idx_facts1 t).2.2.2.2.2.2.1.2]; omega
theorem emb1_7 (t : Fin cfg1.N) (o : Fin 128) :
    ((cfg1.win 7).blk t).view.emb (ix2 0 o) = (ix2 0 o : S1x128.Idx) := by
  funext a
  apply Fin.ext
  match a with
  | ⟨0, _⟩ => show win1_7.index t 0 * 1 + 1 * 0 = 0; rw [(idx_facts1 t).2.2.2.2.2.2.2.1]
  | ⟨1, _⟩ => show win1_7.index t 1 * 128 + 1 * o.val = o.val; rw [(idx_facts1 t).2.2.2.2.2.2.2.2]; omega

abbrev r1_h : Fin 600000 → Fin 128 → EReal := fun e o => (V c main_v37_0 : S600000x128.Idx → EReal) (ix2 e o)
abbrev r1_sc : Fin 128 → EReal := fun o => (V c main_v48 : S1x128.Idx → EReal) (ix2 (0 : Fin 1) o)
abbrev r1_sh : Fin 128 → EReal := fun o => (V c main_v51 : S1x128.Idx → EReal) (ix2 (0 : Fin 1) o)
abbrev r1_w : Fin 128 → Fin 128 → EReal := fun o k => (V c main_v24 : S128x128.Idx → EReal) (ix2 k o)
abbrev r1_b : Fin 128 → EReal := fun o => (V c main_v25 : S1x128.Idx → EReal) (ix2 (0 : Fin 1) o)

abbrev r1_lin : Fin 600000 → Fin 128 → EReal :=
  Cert.Spec.lin (K := 128) (fun e o => max (r1_h V c e o * r1_sc V c o + r1_sh V c o) Cert.Spec.fzero) (r1_w V c) (r1_b V c)

theorem pay5_at1 (t : Fin cfg1.N) (r : Fin 6000) (o : Fin 128) :
    k1_pay5 (F := Ideal) (hblk1 V c t) (scblk1 V c t) (shblk1 V c t) (wblk1 V c t) (bblk1 V c t) (ix2 r o)
      = r1_lin V c ⟨6000 * t.val + r.val, row_lt1 t r⟩ o := by
  refine (k1_pay5_apply (hblk1 V c t) (scblk1 V c t) (shblk1 V c t) (wblk1 V c t) (bblk1 V c t) r o).trans ?_
  show _ = (∑ k : Fin 128, max (r1_h V c _ k * r1_sc V c k + r1_sh V c k) Cert.Spec.fzero * r1_w V c o k) + r1_b V c o
  rw [bblk1_apply V c t o]
  refine congrArg (· + _) (Finset.sum_congr rfl fun k _ => ?_)
  rw [hblk1_apply V c t r k, scblk1_apply V c t k, shblk1_apply V c t k, wblk1_apply V c t k o]

def G1_5 : Buf (Elt Ideal) ((c : Thread nD τ).loc main_v52_0) :=
  fun j : S600000x128.Idx => r1_lin V c (j 0) (j 1)

theorem flushed1_5 (t : Fin cfg1.N) :
    (dat1 V c).flushed 5 t = ((cfg1.win 5).blk t).view.read (Elt Ideal) (G1_5 V c) := by
  show (cfg1.win 5).cut (grid1.coords t) ((dat1 V c).after 5 t) = _
  rw [after1_5]
  refine funext fun (y : S6000x128.Idx) => ?_
  obtain ⟨r, o, rfl⟩ : ∃ (r : Fin 6000) (o : Fin 128), y = ix2 r o := ⟨y 0, y 1, eq_ix2 y⟩
  rw [View.read_apply, emb1_5 t r o]
  show k1_pay2 (F := Ideal) (k1_pay5 (F := Ideal) (hblk1 V c t) (scblk1 V c t) (shblk1 V c t) (wblk1 V c t) (bblk1 V c t)) (ix2 r o) = r1_lin V c ⟨6000 * t.val + r.val, row_lt1 t r⟩ o
  rw [k1_pay2_eq]
  exact pay5_at1 V c t r o

theorem mem_blk1_5 (t : Fin cfg1.N) (i : S600000x128.Idx) :
    i ∈ ((cfg1.win 5).blk t).view.set ↔ ∀ a : Fin 2, win1_5.index t a * S6000x128.size a ≤ (i a).val ∧ (i a).val < win1_5.index t a * S6000x128.size a + S6000x128.size a := by
  show i ∈ ((View.whole main_v52_0).slice (win1_5.rect t)).set ↔ _
  rw [View.set_slice_whole, Rect.mem_set_unit]
  exact Iff.rfl

theorem cover1_5 (i : S600000x128.Idx) :
    ∃ t : Fin cfg1.N, (cfg1.win 5).flush t = true ∧ i ∈ ((cfg1.win 5).blk t).view.set := by
  have hi0 : (i 0).val < 600000 := (i 0).isLt
  have hi1 : (i 1).val < 128 := (i 1).isLt
  have hN : cfg1.N = 100 := N_1
  obtain ⟨t, ht⟩ : ∃ t : Fin cfg1.N, t.val = (i 0).val / 6000 := ⟨⟨(i 0).val / 6000, by rw [hN]; omega⟩, rfl⟩
  refine ⟨t, flush1_5 t, ?_⟩
  rw [mem_blk1_5]
  have e0 := (idx_facts1 t).2.2.2.2.2.1.1
  have e1 := (idx_facts1 t).2.2.2.2.2.1.2
  intro a
  match a with
  | ⟨0, _⟩ => show win1_5.index t 0 * 6000 ≤ (i 0).val ∧ (i 0).val < win1_5.index t 0 * 6000 + 6000; rw [e0]; omega
  | ⟨1, _⟩ => show win1_5.index t 1 * 128 ≤ (i 1).val ∧ (i 1).val < win1_5.index t 1 * 128 + 128; rw [e1]; omega

theorem final1_5 : (dat1 V c).arrAt 5 cfg1.N = G1_5 V c :=
  (dat1 V c).arrAt_eq_of_cover 5 (G1_5 V c) (fun t _ => flushed1_5 V c t) (cover1_5)

theorem pt1_fin (t : Fin 100) : pt1 t.val = (⟨t.val, lt_of_lt_of_eq t.isLt N_1.symm⟩ : Fin cfg1.N) :=
  pt1_val ⟨t.val, lt_of_lt_of_eq t.isLt N_1.symm⟩

theorem acc1s_total (o : Fin 128) : acc1s V c 99 (ix2 (0 : Fin 1) o) = Cert.Spec.colSum (r1_lin V c) o := by
  have h := Cert.BlockSums.running_total_600000 (M := EReal) (fun e => r1_lin V c e o)
    (fun n => acc1s V c n (ix2 (0 : Fin 1) o))
    (fun n => ∑ r : Fin 6000, k1_pay5 (F := Ideal) (hblk1 V c (pt1 n)) (scblk1 V c (pt1 n)) (shblk1 V c (pt1 n)) (wblk1 V c (pt1 n)) (bblk1 V c (pt1 n)) (ix2 r o))
    0
    (fun t => by
      show (∑ r : Fin 6000, k1_pay5 (F := Ideal) (hblk1 V c (pt1 t.val)) (scblk1 V c (pt1 t.val)) (shblk1 V c (pt1 t.val)) (wblk1 V c (pt1 t.val)) (bblk1 V c (pt1 t.val)) (ix2 r o)) = _
      rw [pt1_fin t]
      exact Finset.sum_congr rfl fun r _ => pay5_at1 V c ⟨t.val, lt_of_lt_of_eq t.isLt N_1.symm⟩ r o)
    (by
      show k1_pay6 (F := Ideal) (hblk1 V c (pt1 0)) (scblk1 V c (pt1 0)) (shblk1 V c (pt1 0)) (wblk1 V c (pt1 0)) (bblk1 V c (pt1 0)) (k1_pay3 (F := Ideal)) (ix2 (0 : Fin 1) o) = _
      refine (k1_pay6_apply (hblk1 V c (pt1 0)) (scblk1 V c (pt1 0)) (shblk1 V c (pt1 0)) (wblk1 V c (pt1 0)) (bblk1 V c (pt1 0)) (k1_pay3 (F := Ideal)) o).trans ?_
      rw [k1_pay3_apply])
    (fun n _ => by
      show k1_pay6 (F := Ideal) (hblk1 V c (pt1 (n + 1))) (scblk1 V c (pt1 (n + 1))) (shblk1 V c (pt1 (n + 1))) (wblk1 V c (pt1 (n + 1))) (bblk1 V c (pt1 (n + 1))) (acc1s V c n) (ix2 (0 : Fin 1) o) = _
      exact k1_pay6_apply (hblk1 V c (pt1 (n + 1))) (scblk1 V c (pt1 (n + 1))) (shblk1 V c (pt1 (n + 1))) (wblk1 V c (pt1 (n + 1))) (bblk1 V c (pt1 (n + 1))) (acc1s V c n) o)
  rw [h, zero_add]; rfl

theorem acc1q_total (o : Fin 128) : acc1q V c 99 (ix2 (0 : Fin 1) o) = Cert.Spec.colSumSq (r1_lin V c) o := by
  have h := Cert.BlockSums.running_total_600000 (M := EReal) (fun e => r1_lin V c e o * r1_lin V c e o)
    (fun n => acc1q V c n (ix2 (0 : Fin 1) o))
    (fun n => ∑ r : Fin 6000, k1_pay5 (F := Ideal) (hblk1 V c (pt1 n)) (scblk1 V c (pt1 n)) (shblk1 V c (pt1 n)) (wblk1 V c (pt1 n)) (bblk1 V c (pt1 n)) (ix2 r o) * k1_pay5 (F := Ideal) (hblk1 V c (pt1 n)) (scblk1 V c (pt1 n)) (shblk1 V c (pt1 n)) (wblk1 V c (pt1 n)) (bblk1 V c (pt1 n)) (ix2 r o))
    0
    (fun t => by
      show (∑ r : Fin 6000, k1_pay5 (F := Ideal) (hblk1 V c (pt1 t.val)) (scblk1 V c (pt1 t.val)) (shblk1 V c (pt1 t.val)) (wblk1 V c (pt1 t.val)) (bblk1 V c (pt1 t.val)) (ix2 r o) * k1_pay5 (F := Ideal) (hblk1 V c (pt1 t.val)) (scblk1 V c (pt1 t.val)) (shblk1 V c (pt1 t.val)) (wblk1 V c (pt1 t.val)) (bblk1 V c (pt1 t.val)) (ix2 r o)) = _
      rw [pt1_fin t]
      exact Finset.sum_congr rfl fun r _ => by rw [pay5_at1 V c ⟨t.val, lt_of_lt_of_eq t.isLt N_1.symm⟩ r o])
    (by
      show k1_pay1 (F := Ideal) (k1_pay4 (F := Ideal)) (k1_pay7 (F := Ideal) (hblk1 V c (pt1 0)) (scblk1 V c (pt1 0)) (shblk1 V c (pt1 0)) (wblk1 V c (pt1 0)) (bblk1 V c (pt1 0))) (ix2 (0 : Fin 1) o) = _
      refine (k1_pay1_apply _ _ _).trans ?_
      rw [k1_pay4_apply, k1_pay7_apply (hblk1 V c (pt1 0)) (scblk1 V c (pt1 0)) (shblk1 V c (pt1 0)) (wblk1 V c (pt1 0)) (bblk1 V c (pt1 0)) o])
    (fun n _ => by
      show k1_pay1 (F := Ideal) (acc1q V c n) (k1_pay7 (F := Ideal) (hblk1 V c (pt1 (n + 1))) (scblk1 V c (pt1 (n + 1))) (shblk1 V c (pt1 (n + 1))) (wblk1 V c (pt1 (n + 1))) (bblk1 V c (pt1 (n + 1)))) (ix2 (0 : Fin 1) o) = _
      refine (k1_pay1_apply _ _ _).trans ?_
      rw [k1_pay7_apply (hblk1 V c (pt1 (n + 1))) (scblk1 V c (pt1 (n + 1))) (shblk1 V c (pt1 (n + 1))) (wblk1 V c (pt1 (n + 1))) (bblk1 V c (pt1 (n + 1))) o])
  rw [h, zero_add]; rfl

def G1_6 : Buf (Elt Ideal) ((c : Thread nD τ).loc main_v52_1) :=
  fun j : S1x128.Idx => Cert.Spec.colSum (r1_lin V c) (j 1)
def G1_7 : Buf (Elt Ideal) ((c : Thread nD τ).loc main_v52_2) :=
  fun j : S1x128.Idx => Cert.Spec.colSumSq (r1_lin V c) (j 1)

theorem last_of_flush1_6 (t : Fin cfg1.N) (hf : (cfg1.win 6).flush t = true) : t.val = 99 := by
  have := (flush1_6 t).mp hf; have := lt_of_lt_of_eq t.isLt (show cfg1.N = 100 from N_1); omega
theorem last_of_flush1_7 (t : Fin cfg1.N) (hf : (cfg1.win 7).flush t = true) : t.val = 99 := by
  have := (flush1_7 t).mp hf; have := lt_of_lt_of_eq t.isLt (show cfg1.N = 100 from N_1); omega

theorem flushed1_6 (t : Fin cfg1.N) (hf : (cfg1.win 6).flush t = true) :
    (dat1 V c).flushed 6 t = ((cfg1.win 6).blk t).view.read (Elt Ideal) (G1_6 V c) := by
  show (cfg1.win 6).cut (grid1.coords t) ((dat1 V c).after 6 t) = _
  rw [after1_6, last_of_flush1_6 t hf]
  generalize hA : acc1s V c 99 = A
  generalize hG : G1_6 V c = G
  refine funext fun (y : S1x128.Idx) => ?_
  obtain ⟨z, o, rfl⟩ : ∃ (z : Fin 1) (o : Fin 128), y = ix2 z o := ⟨y 0, y 1, eq_ix2 y⟩
  obtain rfl : z = 0 := Subsingleton.elim _ _
  show A (ix2 (0 : Fin 1) o) = G (((cfg1.win 6).blk t).view.emb (ix2 (0 : Fin 1) o))
  rw [emb1_6 t o, ← hA, ← hG]
  exact acc1s_total V c o
theorem flushed1_7 (t : Fin cfg1.N) (hf : (cfg1.win 7).flush t = true) :
    (dat1 V c).flushed 7 t = ((cfg1.win 7).blk t).view.read (Elt Ideal) (G1_7 V c) := by
  show (cfg1.win 7).cut (grid1.coords t) ((dat1 V c).after 7 t) = _
  rw [after1_7, last_of_flush1_7 t hf]
  generalize hA : acc1q V c 99 = A
  generalize hG : G1_7 V c = G
  refine funext fun (y : S1x128.Idx) => ?_
  obtain ⟨z, o, rfl⟩ : ∃ (z : Fin 1) (o : Fin 128), y = ix2 z o := ⟨y 0, y 1, eq_ix2 y⟩
  obtain rfl : z = 0 := Subsingleton.elim _ _
  show A (ix2 (0 : Fin 1) o) = G (((cfg1.win 7).blk t).view.emb (ix2 (0 : Fin 1) o))
  rw [emb1_7 t o, ← hA, ← hG]
  exact acc1q_total V c o

theorem cover1_6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  obtain ⟨t, ht⟩ : ∃ t : Fin cfg1.N, t.val = 99 := ⟨⟨99, by rw [show cfg1.N = 100 from N_1]; omega⟩, rfl⟩
  refine ⟨t, (flush1_6 t).mpr (by rw [ht]), ?_⟩
  show i ∈ ((View.whole main_v52_1).slice (win1_6.rect t)).set
  rw [View.set_slice_whole, Rect.mem_set_unit]
  have e0 := (idx_facts1 t).2.2.2.2.2.2.1.1
  have e1 := (idx_facts1 t).2.2.2.2.2.2.1.2
  intro a
  match a with
  | ⟨0, _⟩ => show win1_6.index t 0 * 1 ≤ (i 0).val ∧ (i 0).val < win1_6.index t 0 * 1 + 1; rw [e0]; omega
  | ⟨1, _⟩ => show win1_6.index t 1 * 128 ≤ (i 1).val ∧ (i 1).val < win1_6.index t 1 * 128 + 128; rw [e1]; omega
theorem cover1_7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  obtain ⟨t, ht⟩ : ∃ t : Fin cfg1.N, t.val = 99 := ⟨⟨99, by rw [show cfg1.N = 100 from N_1]; omega⟩, rfl⟩
  refine ⟨t, (flush1_7 t).mpr (by rw [ht]), ?_⟩
  show i ∈ ((View.whole main_v52_2).slice (win1_7.rect t)).set
  rw [View.set_slice_whole, Rect.mem_set_unit]
  have e0 := (idx_facts1 t).2.2.2.2.2.2.2.1
  have e1 := (idx_facts1 t).2.2.2.2.2.2.2.2
  intro a
  match a with
  | ⟨0, _⟩ => show win1_7.index t 0 * 1 ≤ (i 0).val ∧ (i 0).val < win1_7.index t 0 * 1 + 1; rw [e0]; omega
  | ⟨1, _⟩ => show win1_7.index t 1 * 128 ≤ (i 1).val ∧ (i 1).val < win1_7.index t 1 * 128 + 128; rw [e1]; omega

theorem final1_6 : (dat1 V c).arrAt 6 cfg1.N = G1_6 V c :=
  (dat1 V c).arrAt_eq_of_cover 6 (G1_6 V c) (flushed1_6 V c) (cover1_6)
theorem final1_7 : (dat1 V c).arrAt 7 cfg1.N = G1_7 V c :=
  (dat1 V c).arrAt_eq_of_cover 7 (G1_7 V c) (flushed1_7 V c) (cover1_7)

theorem arr1_5 (e : Fin 600000) (o : Fin 128) :
    ((dat1 V c).arrAt 5 cfg1.N : S600000x128.Idx → EReal) (ix2 e o) = r1_lin V c e o := by
  rw [final1_5]; rfl

theorem arr1_6 (o : Fin 128) :
    ((dat1 V c).arrAt 6 cfg1.N : S1x128.Idx → EReal) (ix2 (0 : Fin 1) o) = Cert.Spec.colSum (r1_lin V c) o := by
  rw [final1_6]; rfl

theorem arr1_7 (o : Fin 128) :
    ((dat1 V c).arrAt 7 cfg1.N : S1x128.Idx → EReal) (ix2 (0 : Fin 1) o) = Cert.Spec.colSumSq (r1_lin V c) o := by
  rw [final1_7]; rfl

end Cert.KernelIdeal.HandV

end
-- ==== Proof.KIRegion2Value.lean ====
import proofs.«121905_j68624987455985_1_alg».proof.Proof.KIRegion2
import proofs.«121905_j68624987455985_1_alg».proof.Proof.Spec
import proofs.«121905_j68624987455985_1_alg».proof.Proof.KIPayloads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

abbrev hIn2 (c : Dev nD) : Fin 600000 → Fin 128 → EReal := fun e o => V c main_v52_0 (ix2 e o)

abbrev scIn2 (c : Dev nD) : Fin 128 → EReal := fun o => V c main_v63 (ix2 (0 : Fin 1) o)
abbrev shIn2 (c : Dev nD) : Fin 128 → EReal := fun o => V c main_v66 (ix2 (0 : Fin 1) o)

abbrev wIn2 (c : Dev nD) : Fin 128 → Fin 128 → EReal := fun o k => V c main_v30 (ix2 k o)

abbrev bIn2 (c : Dev nD) : Fin 128 → EReal := fun o => V c main_v36 (ix2 (0 : Fin 1) o)

def y2 (c : Dev nD) : Fin 600000 → Fin 128 → EReal :=
  fun e o => max (hIn2 V c e o * scIn2 V c o + shIn2 V c o) Cert.Spec.fzero

def G2 (c : Dev nD) : S600000x128.Idx → EReal :=
  fun j => Cert.Spec.lin (K := 128) (y2 V c) (wIn2 V c) (bIn2 V c) (j 0) (j 1)

theorem hz : (![0, 0] : Fin 2 → Nat) = fun _ => 0 := funext fun a => by fin_cases a <;> rfl

theorem idx_facts : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

def row (t : Fin cfg2.N) (r : Fin 6000) : Fin 600000 := ⟨t.val * 6000 + r.val, by
  have ht : t.val < 100 := t.isLt
  have hr := r.isLt; omega⟩

theorem emb0 (t : Fin cfg2.N) (r : Fin 6000) (k : Fin 128) : ((cfg2.win 0).blk t).view.emb (ix2 r k) = ix2 (row t r) k := by
  obtain ⟨e0, e1, -⟩ := idx_facts t
  funext a; apply Fin.ext
  match a with
  | ⟨0, _⟩ => show win2_0.index t (0 : Fin 2) * 6000 + 1 * r.val = t.val * 6000 + r.val; rw [e0]; omega
  | ⟨1, _⟩ => show win2_0.index t (1 : Fin 2) * 128 + 1 * k.val = k.val; rw [e1]; omega

theorem emb5 (t : Fin cfg2.N) (r : Fin 6000) (o : Fin 128) : ((cfg2.win 5).blk t).view.emb (ix2 r o) = ix2 (row t r) o := by
  obtain ⟨-, -, e0, e1, -⟩ := idx_facts t
  funext a; apply Fin.ext
  match a with
  | ⟨0, _⟩ => show win2_5.index t (0 : Fin 2) * 6000 + 1 * r.val = t.val * 6000 + r.val; rw [e0]; omega
  | ⟨1, _⟩ => show win2_5.index t (1 : Fin 2) * 128 + 1 * o.val = o.val; rw [e1]; omega

theorem emb1 (t : Fin cfg2.N) (k : Fin 128) : ((cfg2.win 1).blk t).view.emb (ix2 (0 : Fin 1) k) = ix2 (0 : Fin 1) k := by
  obtain ⟨-, -, -, -, e0, e1, -⟩ := idx_facts t
  funext a; apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

theorem emb2 (t : Fin cfg2.N) (k : Fin 128) : ((cfg2.win 2).blk t).view.emb (ix2 (0 : Fin 1) k) = ix2 (0 : Fin 1) k := by
  obtain ⟨-, -, -, -, -, -, e0, e1, -⟩ := idx_facts t
  funext a; apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

theorem emb3 (t : Fin cfg2.N) (k : Fin 128) (o : Fin 128) : ((cfg2.win 3).blk t).view.emb (ix2 k o) = ix2 k o := by
  obtain ⟨-, -, -, -, -, -, -, -, e0, e1, -⟩ := idx_facts t
  funext a; apply Fin.ext
  match a with
  | ⟨0, _⟩ => show win2_3.index t (0 : Fin 2) * 128 + 1 * k.val = k.val; rw [e0]; omega
  | ⟨1, _⟩ => show win2_3.index t (1 : Fin 2) * 128 + 1 * o.val = o.val; rw [e1]; omega

theorem emb4 (t : Fin cfg2.N) (o : Fin 128) : ((cfg2.win 4).blk t).view.emb (ix2 (0 : Fin 1) o) = ix2 (0 : Fin 1) o := by
  obtain ⟨-, -, -, -, -, -, -, -, -, -, e0, e1⟩ := idx_facts t
  funext a; apply Fin.ext
  match a with
  | ⟨0, _⟩ => show win2_4.index t (0 : Fin 2) * 1 + 1 * 0 = 0; rw [e0]
  | ⟨1, _⟩ => show win2_4.index t (1 : Fin 2) * 128 + 1 * o.val = o.val; rw [e1]; omega

abbrev xb0 (c : Dev nD) (t : Fin cfg2.N) : Vec Ideal S6000x128 .bf16 := iblk2 V c 0 t
abbrev xb1 (c : Dev nD) (t : Fin cfg2.N) : Vec Ideal S1x128 .f32 := iblk2 V c 1 t
abbrev xb2 (c : Dev nD) (t : Fin cfg2.N) : Vec Ideal S1x128 .f32 := iblk2 V c 2 t
abbrev xb3 (c : Dev nD) (t : Fin cfg2.N) : Vec Ideal S128x128 .bf16 := iblk2 V c 3 t
abbrev xb4 (c : Dev nD) (t : Fin cfg2.N) : Vec Ideal S1x128 .f32 := iblk2 V c 4 t

theorem xb0_at (c : Dev nD) (t : Fin cfg2.N) (r : Fin 6000) (k : Fin 128) : xb0 V c t (ix2 r k) = hIn2 V c (row t r) k := by
  show V c main_v52_0 (((cfg2.win 0).blk t).view.emb (ix2 r k)) = V c main_v52_0 (ix2 (row t r) k)
  rw [emb0]
theorem xb1_at (c : Dev nD) (t : Fin cfg2.N) (k : Fin 128) : xb1 V c t (ix2 (0 : Fin 1) k) = scIn2 V c k := by
  show V c main_v63 (((cfg2.win 1).blk t).view.emb (ix2 (0 : Fin 1) k)) = V c main_v63 (ix2 (0 : Fin 1) k)
  rw [emb1]
theorem xb2_at (c : Dev nD) (t : Fin cfg2.N) (k : Fin 128) : xb2 V c t (ix2 (0 : Fin 1) k) = shIn2 V c k := by
  show V c main_v66 (((cfg2.win 2).blk t).view.emb (ix2 (0 : Fin 1) k)) = V c main_v66 (ix2 (0 : Fin 1) k)
  rw [emb2]
theorem xb3_at (c : Dev nD) (t : Fin cfg2.N) (k o : Fin 128) : xb3 V c t (ix2 k o) = wIn2 V c o k := by
  show V c main_v30 (((cfg2.win 3).blk t).view.emb (ix2 k o)) = V c main_v30 (ix2 k o)
  rw [emb3]
theorem xb4_at (c : Dev nD) (t : Fin cfg2.N) (o : Fin 128) : xb4 V c t (ix2 (0 : Fin 1) o) = bIn2 V c o := by
  show V c main_v36 (((cfg2.win 4).blk t).view.emb (ix2 (0 : Fin 1) o)) = V c main_v36 (ix2 (0 : Fin 1) o)
  rw [emb4]

theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S6000x128) hz, View.ld_unit_zero (S := S1x128) hz, View.ld_unit_zero (S := S128x128) hz]
  funext y
  obtain ⟨r, o, rfl⟩ : ∃ (r : Fin 6000) (o : Fin 128), y = ix2 r o := ⟨y 0, y 1, eq_ix2 y⟩
  refine (k2_pay1_apply (xb0 V c t) (xb1 V c t) (xb2 V c t) (xb3 V c t) (xb4 V c t) r o).trans ?_
  refine Eq.trans ?_ (congrArg (G2 V c) (emb5 t r o)).symm
  show _ = (∑ k : Fin 128, y2 V c (row t r) k * wIn2 V c o k) + bIn2 V c o
  rw [xb4_at]
  refine congrArg (· + bIn2 V c o) (Finset.sum_congr rfl fun k _ => ?_)
  rw [xb0_at, xb1_at, xb2_at, xb3_at]
  rfl

theorem mem_blk5 (t : Fin cfg2.N) (i : S600000x128.Idx) :
    i ∈ ((cfg2.win 5).blk t).view.set ↔ ∀ a : Fin 2, win2_5.index t a * S6000x128.size a ≤ (i a).val ∧ (i a).val < win2_5.index t a * S6000x128.size a + S6000x128.size a := by
  show i ∈ ((View.whole main_v67).slice (win2_5.rect t)).set ↔ _
  rw [View.set_slice_whole, Rect.mem_set_unit]
  exact Iff.rfl

theorem cover5 (i : S600000x128.Idx) : ∃ t : Fin cfg2.N, (cfg2.win 5).flush t = true ∧ i ∈ ((cfg2.win 5).blk t).view.set := by
  have hi0 : (i 0).val < 600000 := (i 0).isLt
  have hi1 : (i 1).val < 128 := (i 1).isLt
  have hq : (i 0).val / 6000 < 100 := by omega
  refine ⟨⟨(i 0).val / 6000, hq⟩, flush2_5 _, ?_⟩
  rw [mem_blk5]
  obtain ⟨-, -, e0, e1, -⟩ := idx_facts ⟨(i 0).val / 6000, hq⟩
  intro a
  match a with
  | ⟨0, _⟩ =>
    show win2_5.index ⟨(i 0).val / 6000, hq⟩ (0 : Fin 2) * 6000 ≤ (i 0).val ∧ (i 0).val < win2_5.index ⟨(i 0).val / 6000, hq⟩ (0 : Fin 2) * 6000 + 6000
    rw [e0]; show (i 0).val / 6000 * 6000 ≤ (i 0).val ∧ (i 0).val < (i 0).val / 6000 * 6000 + 6000; omega
  | ⟨1, _⟩ =>
    show win2_5.index ⟨(i 0).val / 6000, hq⟩ (1 : Fin 2) * 128 ≤ (i 1).val ∧ (i 1).val < win2_5.index ⟨(i 0).val / 6000, hq⟩ (1 : Fin 2) * 128 + 128
    rw [e1]; omega

theorem arr2_5 (c : Dev nD) (j : S600000x128.Idx) : (dat2 V c).arrAt 5 cfg2.N j =
    Cert.Spec.lin (K := 128) (fun e o => max (hIn2 V c e o * scIn2 V c o + shIn2 V c o) Cert.Spec.fzero)
      (wIn2 V c) (bIn2 V c) (j 0) (j 1) :=
  congrFun ((dat2 V c).arrAt_eq_of_cover 5 (G2 V c) (fun t _ => flushed2_eq V c t) cover5) j

end Cert.KernelIdeal.HandV

end
-- ==== Proof.KIHost0Ef.lean ====
import proofs.«121905_j68624987455985_1_alg».proof.Proof.Gen.KernelIdeal.Launch
import proofs.«121905_j68624987455985_1_alg».proof.Proof.KIEf
import Idealize.ShloMosaic.Lib.ValueIdx
import Idealize.ShloMosaic.Lib.Pipeline.Value

noncomputable section

namespace Cert.KernelIdeal.HandV

open Idealize.ShloMosaic Idealize.ShloMosaic.TcCoe Idealize.ShloMosaic.ValueIdx
open Cert.KernelIdeal Cert.KernelIdeal.Gen

local macro "results_rw" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

set_option maxHeartbeats 4000000 in

theorem host0_v19 (W : Valuation τ sig (Elt Ideal)) (e : Fin 600000) (k : Fin 256) :
    (StableHlo.after (hostOps0 (F := Ideal)) W) main_v19 (ix2 e k) = efOf (W main_arg0) (W main_arg1) (ix2 e k) := by
  after_results_simp
  results_rw
  rfl

theorem efOf_real (x : Vec Ideal S50000x128 .f32) (ei : Vec Ideal S2x600000 .i32)
    (hx : ∀ i, ∃ r : ℝ, x i = (r : EReal)) (j : S600000x256.Idx) : ∃ r : ℝ, efOf x ei j = (r : EReal) := by
  obtain ⟨e, k, rfl⟩ : ∃ (e : Fin 600000) (k : Fin 256), j = ix2 e k := ⟨j 0, j 1, eq_ix2 j⟩
  unfold efOf
  by_cases hk : k.val < 128
  · obtain ⟨r, hr⟩ := hx (gather_S50000x128_S600000x1_S600000x128_1_0_n_n_0_1_1128.operandIdx (ix2 e ⟨k.val, hk⟩) (edgeIdx0 ei))
    exact ⟨r, (concatenate_pair_apply_left 1 _ _ concatenates_S600000x128_S600000x128_S600000x256_d1 (ix2 e k) rfl
      (ix2 e ⟨k.val, hk⟩) (fun b => match b with | ⟨0, _⟩ => rfl | ⟨1, _⟩ => rfl)).trans hr⟩
  · obtain ⟨r, hr⟩ := hx (gather_S50000x128_S600000x1_S600000x128_1_0_n_n_0_1_1128.operandIdx
      (ix2 e ⟨k.val - 128, by have := k.isLt; omega⟩) (edgeIdx1 ei))
    exact ⟨r, (concatenate_pair_apply_right 1 _ _ concatenates_S600000x128_S600000x128_S600000x256_d1 (ix2 e k) rfl rfl
      (ix2 e ⟨k.val - 128, by have := k.isLt; omega⟩)
      (fun b hb => match b, hb with | ⟨0, _⟩, _ => rfl | ⟨1, _⟩, hb => absurd rfl hb)
      (by show (k.val - 128) + 128 = k.val; omega)).trans hr⟩

end Cert.KernelIdeal.HandV

end
-- ==== Proof.KIHost0W.lean ====
import proofs.«121905_j68624987455985_1_alg».proof.Proof.Gen.KernelIdeal.Launch
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.HandV

open Idealize.ShloMosaic Idealize.ShloMosaic.TcCoe Idealize.ShloMosaic.ValueIdx
open Cert.KernelIdeal Cert.KernelIdeal.Gen

section Scatter
variable {α : Type} {s si u : Shape} {w : Nat}

theorem scatter_fold_at (d : ScatterDims s si u) (idx : IVec si w) (upd : u.Idx → α)
    (j : u.Idx) (i : s.Idx) (hj : d.resultIdx? j idx = some i)
    (huniq : ∀ j', d.resultIdx? j' idx = some i → j' = j) :
    ∀ (L : List (Fin u.numel)) (r : s.Idx → α),
      (L.foldl (fun r n =>
        match d.resultIdx? (u.rowMajor.symm n) idx with
        | some i0 => fun i' => if i' = i0 then (fun (_ b : α) => b) (r i0) (upd (u.rowMajor.symm n)) else r i'
        | none => r) r) i = if u.rowMajor j ∈ L then upd j else r i := by
  intro L
  induction L with
  | nil => intro r; simp
  | cons n L ih =>
    intro r
    rw [List.foldl_cons, ih]
    by_cases hn : u.rowMajor j = n
    · subst hn
      simp only [Equiv.symm_apply_apply, hj, List.mem_cons, true_or, if_true]
      split_ifs <;> rfl
    · have hne : d.resultIdx? (u.rowMajor.symm n) idx ≠ some i := fun h => hn (by rw [← huniq _ h]; simp)
      have hmem : (u.rowMajor j ∈ n :: L) ↔ u.rowMajor j ∈ L := by simp [hn]
      simp only [hmem]
      cases hres : d.resultIdx? (u.rowMajor.symm n) idx with
      | none => rfl
      | some i0 =>
        have hii : i ≠ i0 := fun h => hne (h ▸ hres)
        simp only [if_neg hii]

theorem scatter_set_apply (d : ScatterDims s si u) (x : s.Idx → α) (idx : IVec si w) (upd : u.Idx → α)
    (j : u.Idx) (i : s.Idx) (hj : d.resultIdx? j idx = some i)
    (huniq : ∀ j', d.resultIdx? j' idx = some i → j' = j) :
    Host.scatter d (fun _ b => b) x idx upd i = upd j := by
  unfold Host.scatter
  refine (scatter_fold_at d idx upd j i hj huniq _ x).trans ?_
  rw [if_pos (List.mem_finRange _)]

theorem start_zero (d : ScatterDims s si u) (idx : IVec si 32) (hidx : ∀ q, idx q = 0#32) (j : u.Idx) (a : Fin s.rank) :
    d.start j idx a = 0 := by
  unfold ScatterDims.start
  split
  · rw [hidx]; rfl
  · rfl

end Scatter

theorem fin2_cases (a : Fin 2) : a = 0 ∨ a = 1 := by fin_cases a <;> simp

theorem resultIdx_col (idx : IVec S1 32) (hidx : ∀ q, idx q = 0#32) (k : Fin 128) :
    scatter_S128x128_S1_S128_0_1_1_0.resultIdx? (ix1 k) idx = some (ix2 k 0) := by
  have hs := start_zero scatter_S128x128_S1_S128_0_1_1_0 idx hidx (ix1 k)
  have hw0 : scatter_S128x128_S1_S128_0_1_1_0.window (ix1 k) 0 = k.val := rfl
  have hw1 : scatter_S128x128_S1_S128_0_1_1_0.window (ix1 k) 1 = 0 := rfl
  have hk : k.val < 128 := k.isLt
  have H : ∀ a, 0 ≤ scatter_S128x128_S1_S128_0_1_1_0.start (ix1 k) idx a + scatter_S128x128_S1_S128_0_1_1_0.window (ix1 k) a
      ∧ scatter_S128x128_S1_S128_0_1_1_0.start (ix1 k) idx a + scatter_S128x128_S1_S128_0_1_1_0.window (ix1 k) a < S128x128.size a := by
    intro a
    rw [hs]
    rcases fin2_cases a with rfl | rfl
    · rw [hw0]; show (0:Int) ≤ 0 + (k.val : Int) ∧ 0 + (k.val : Int) < ((128 : Nat) : Int); omega
    · rw [hw1]; show (0:Int) ≤ 0 + ((0:Nat) : Int) ∧ 0 + ((0:Nat) : Int) < ((128 : Nat) : Int); omega
  rw [ScatterDims.resultIdx?, dif_pos H]
  congr 1
  funext a
  refine Fin.ext ?_
  show (scatter_S128x128_S1_S128_0_1_1_0.start (ix1 k) idx a + scatter_S128x128_S1_S128_0_1_1_0.window (ix1 k) a).toNat = _
  rw [hs]
  rcases fin2_cases a with rfl | rfl
  · rw [hw0]; show (0 + (k.val : Int)).toNat = k.val; omega
  · rw [hw1]; rfl

theorem resultIdx_col_uniq (idx : IVec S1 32) (hidx : ∀ q, idx q = 0#32) (k : Fin 128) (j' : S128.Idx)
    (h : scatter_S128x128_S1_S128_0_1_1_0.resultIdx? j' idx = some (ix2 k 0)) : j' = ix1 k := by
  obtain ⟨k', rfl⟩ : ∃ k' : Fin 128, j' = ix1 k' := ⟨j' 0, eq_ix1 j'⟩
  rw [resultIdx_col idx hidx k'] at h
  have h0 : k' = k := congrFun (Option.some.inj h) 0
  rw [h0]

theorem resultIdx_entry (idx : IVec S2 32) (hidx : ∀ q, idx q = 0#32) (j : S_.Idx) :
    scatter_S1x128_S2_S__n_01_01_0.resultIdx? j idx = some (ix2 0 0) := by
  have hs := start_zero scatter_S1x128_S2_S__n_01_01_0 idx hidx j
  have hw : ∀ a, scatter_S1x128_S2_S__n_01_01_0.window j a = 0 := fun a => by
    rcases fin2_cases a with rfl | rfl <;> rfl
  have H : ∀ a, 0 ≤ scatter_S1x128_S2_S__n_01_01_0.start j idx a + scatter_S1x128_S2_S__n_01_01_0.window j a
      ∧ scatter_S1x128_S2_S__n_01_01_0.start j idx a + scatter_S1x128_S2_S__n_01_01_0.window j a < S1x128.size a := by
    intro a
    rw [hs, hw]
    rcases fin2_cases a with rfl | rfl
    · show (0:Int) ≤ 0 + ((0:Nat) : Int) ∧ 0 + ((0:Nat) : Int) < ((1 : Nat) : Int); omega
    · show (0:Int) ≤ 0 + ((0:Nat) : Int) ∧ 0 + ((0:Nat) : Int) < ((128 : Nat) : Int); omega
  rw [ScatterDims.resultIdx?, dif_pos H]
  congr 1
  funext a
  refine Fin.ext ?_
  show (scatter_S1x128_S2_S__n_01_01_0.start j idx a + scatter_S1x128_S2_S__n_01_01_0.window j a).toNat = _
  rw [hs, hw]
  rcases fin2_cases a with rfl | rfl <;> rfl

local macro "results_rw" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable (W : Valuation τ sig (Elt Ideal))

theorem host0_v21 (k : Fin 256) (o : Fin 128) :
    (StableHlo.after (hostOps0 (F := Ideal)) W) main_v21 (ix2 k o) = W main_arg2 (ix2 o k) := by
  after_results_simp
  exact transpose_apply _ _ _ (ix2 k o) (ix2 o k) (fun b => match b with | ⟨0, _⟩ => rfl | ⟨1, _⟩ => rfl)

theorem host0_v22 (o : Fin 128) :
    (StableHlo.after (hostOps0 (F := Ideal)) W) main_v22 (ix2 0 o) = W main_arg3 (ix1 o) := by
  after_results_simp
  exact shapeCast_a_1a_apply _ _ 0 o

theorem host0_v24 (k o : Fin 128) :
    (StableHlo.after (hostOps0 (F := Ideal)) W) main_v24 (ix2 k o) = W main_arg6 (ix2 o k) := by
  after_results_simp
  exact transpose_apply _ _ _ (ix2 k o) (ix2 o k) (fun b => match b with | ⟨0, _⟩ => rfl | ⟨1, _⟩ => rfl)

theorem host0_v25 (o : Fin 128) :
    (StableHlo.after (hostOps0 (F := Ideal)) W) main_v25 (ix2 0 o) = W main_arg7 (ix1 o) := by
  after_results_simp
  exact shapeCast_a_1a_apply _ _ 0 o

theorem host0_v30 (k : Fin 128) :
    (StableHlo.after (hostOps0 (F := Ideal)) W) main_v30 (ix2 k 0) = W main_arg10 (ix2 0 k) := by
  after_results_simp
  refine (scatter_set_apply _ _ _ _ (ix1 k) (ix2 k 0) (resultIdx_col _ (fun _ => rfl) k)
    (fun j' h => resultIdx_col_uniq _ (fun _ => rfl) k j' h)).trans ?_
  exact shapeCast_1a_a_apply _ _ k

theorem host0_v36 :
    (StableHlo.after (hostOps0 (F := Ideal)) W) main_v36 (ix2 0 0) = W main_arg11 (ix1 0) := by
  after_results_simp
  results_rw
  have hidx : ∀ q, concatenate S2 0
      [⟨S1, broadcastInDim S1 ![] bcast_S_S1 (constantI S_ 32 0#32)⟩,
       ⟨S1, broadcastInDim S1 ![] bcast_S_S1 (constantI S_ 32 0#32)⟩] concatenates_S1_S1_S2_d0 q = 0#32 := fun q =>
    congrFun (IdealRules.zero_identity.concatenate_zero S2 0
      [⟨S1, broadcastInDim S1 ![] bcast_S_S1 (constantI S_ 32 0#32)⟩,
       ⟨S1, broadcastInDim S1 ![] bcast_S_S1 (constantI S_ 32 0#32)⟩] concatenates_S1_S1_S2_d0 (fun p hp => by
      simp only [List.mem_cons, List.not_mem_nil, or_false] at hp
      rcases hp with rfl | rfl <;> rfl)) q
  refine (scatter_set_apply _ _ _ _ ix0 (ix2 0 0) (resultIdx_entry _ hidx ix0) (fun j' _ => eq_ix0 j')).trans ?_
  exact shapeCast_apply _ _ ix0 (ix1 0) (by
    rw [Shape.rowMajor_val_one]
    exact (Shape.rowMajorPi_zero _ _).symm)

end Cert.KernelIdeal.HandV

end
-- ==== Proof.KIHost0.lean ====
import proofs.«121905_j68624987455985_1_alg».proof.Proof.KIHost0Ef
import proofs.«121905_j68624987455985_1_alg».proof.Proof.KIHost0W
-- ==== Proof.KIValue.lean ====
import proofs.«121905_j68624987455985_1_alg».proof.Proof.KIChase
import proofs.«121905_j68624987455985_1_alg».proof.Proof.KIRun
import proofs.«121905_j68624987455985_1_alg».proof.Proof.KIRegion0Value
import proofs.«121905_j68624987455985_1_alg».proof.Proof.KIRegion1Value
import proofs.«121905_j68624987455985_1_alg».proof.Proof.KIRegion2Value
import proofs.«121905_j68624987455985_1_alg».proof.Proof.KIHost0

noncomputable section

namespace Cert.KernelIdeal.HandV

open Idealize.ShloMosaic Idealize.ShloMosaic.ValueIdx Idealize.ShloMosaic.TcCoe
open Cert.KernelIdeal Cert.KernelIdeal.Gen Cert.KernelIdeal.Hand

variable (m : (ℓ : Loc nD τ sig) → Buf (Elt Ideal) ℓ) (ρ : Dev nD → PrngReg)

theorem host0_at (c : Dev nD) : Host0 (W0 m ρ c) :=
  ⟨host0_v19 (W0 m ρ c), host0_v21 (W0 m ρ c), host0_v22 (W0 m ρ c), host0_v24 (W0 m ρ c), host0_v25 (W0 m ρ c),
    host0_v30 (W0 m ρ c), host0_v36 (W0 m ρ c)⟩

theorem chain_at (c : Dev nD) : Chain (W0 m ρ c) (W2 m ρ c) (W4 m ρ c) (W6 m ρ c) where
  ne2 := fun b hb => W2_of_ne m ρ c b hb
  ne4 := fun b hb => W4_of_ne m ρ c b hb
  ne6 := fun b hb => W6_of_ne m ρ c b hb
  r0h := fun e o => (congrFun (W2_arr m ρ c 3) (ix2 e o)).trans (arr0_3 (V1 m ρ) c (ix2 e o))
  r0s := fun o => (congrFun (W2_arr m ρ c 4) (ix2 (0 : Fin 1) o)).trans (arr0_4 (V1 m ρ) c (ix2 (0 : Fin 1) o))
  r0q := fun o => (congrFun (W2_arr m ρ c 5) (ix2 (0 : Fin 1) o)).trans (arr0_5 (V1 m ρ) c (ix2 (0 : Fin 1) o))
  r1h := fun e o => (congrFun (W4_arr m ρ c 5) (ix2 e o)).trans (arr1_5 (V3 m ρ) c e o)
  r1s := fun o => (congrFun (W4_arr m ρ c 6) (ix2 (0 : Fin 1) o)).trans (arr1_6 (V3 m ρ) c o)
  r1q := fun o => (congrFun (W4_arr m ρ c 7) (ix2 (0 : Fin 1) o)).trans (arr1_7 (V3 m ρ) c o)
  r2h := fun e o => (congrFun (W6_arr m ρ c 5) (ix2 e o)).trans (arr2_5 (V5 m ρ) c (ix2 e o))

theorem result_eq (c : Dev nD) (e : Fin 600000) :
    W7 m ρ c (Proc.devRef .tc main_v69) (ix1 e)
      = Cert.Spec.GK (fun e k => efOf (m ((c : Thread nD τ).loc main_arg0)) (m ((c : Thread nD τ).loc main_arg1)) (ix2 e k))
          (fun o k => (m ((c : Thread nD τ).loc main_arg2)) (ix2 o k)) (fun o => (m ((c : Thread nD τ).loc main_arg3)) (ix1 o))
          (fun o => (m ((c : Thread nD τ).loc main_arg4)) (ix1 o)) (fun o => (m ((c : Thread nD τ).loc main_arg5)) (ix1 o))
          (fun o k => (m ((c : Thread nD τ).loc main_arg6)) (ix2 o k)) (fun o => (m ((c : Thread nD τ).loc main_arg7)) (ix1 o))
          (fun o => (m ((c : Thread nD τ).loc main_arg8)) (ix1 o)) (fun o => (m ((c : Thread nD τ).loc main_arg9)) (ix1 o))
          (fun k => (m ((c : Thread nD τ).loc main_arg10)) (ix2 (0 : Fin 1) k)) ((m ((c : Thread nD τ).loc main_arg11)) (ix1 (0 : Fin 1))) e :=
  (chain_at m ρ c).result (host0_at m ρ c) e

end Cert.KernelIdeal.HandV

end
-- ==== Proof.RefOut.lean ====
import proofs.«121905_j68624987455985_1_alg».proof.ReferenceIdeal
import proofs.«121905_j68624987455985_1_alg».proof.Proof.Gen.ReferenceIdeal

noncomputable section

namespace Cert.ReferenceIdeal.Hand

open Cert.ReferenceIdeal Cert.ReferenceIdeal.Gen Idealize.ShloMosaic

variable {F : FTy → Type} [FloatOps F]

def refWrap (r : Vec F S600000 .i32) : Vec F S600000x1 .i32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

def refIdx0 (ei : Vec F S2x600000 .i32) : Vec F S600000x1 .i32 :=
  refWrap (shapeCast S600000 (extractStridedSlice S1x600000 ![0, 0] ei slices_S2x600000_S1x600000_0_0) shapeCasts_S1x600000_S600000)

def refIdx1 (ei : Vec F S2x600000 .i32) : Vec F S600000x1 .i32 :=
  refWrap (shapeCast S600000 (extractStridedSlice S1x600000 ![1, 0] ei slices_S2x600000_S1x600000_1_0) shapeCasts_S1x600000_S600000)

def refEf (x : Vec F S50000x128 .f32) (ei : Vec F S2x600000 .i32) : Vec F S600000x256 .f32 :=
  concatenate S600000x256 1
    [⟨S600000x128, Host.gather gather_S50000x128_S600000x1_S600000x128_1_0_n_n_0_1_1128 x (refIdx0 ei)⟩,
     ⟨S600000x128, Host.gather gather_S50000x128_S600000x1_S600000x128_1_0_n_n_0_1_1128 x (refIdx1 ei)⟩]
    concatenates_S600000x128_S600000x128_S600000x256_d1

def refRow (b : Vec F S128 .f32) : Vec F S600000x128 .f32 :=
  broadcastInDim S600000x128 ![0, 1] bcast_S1x128_S600000x128_0_1 (broadcastInDim S1x128 ![1] bcast_S128_S1x128_1 b)

def refLin256 (ef : Vec F S600000x256 .f32) (w : Vec F S128x256 .f32) (b : Vec F S128 .f32) : Vec F S600000x128 .f32 :=
  addf (Host.dotGeneral dot_S600000x256_S128x256_S600000x128_1_1_0_0_n_n none ef w) (refRow b)

def refLin128 (y : Vec F S600000x128 .f32) (w : Vec F S128x128 .f32) (b : Vec F S128 .f32) : Vec F S600000x128 .f32 :=
  addf (Host.dotGeneral dot_S600000x128_S128x128_S600000x128_1_1_0_0_n_n none y w) (refRow b)

def refMean (h : Vec F S600000x128 .f32) : Vec F S128 .f32 :=
  Host.divf (Host.reduceAdd h (constant S_ .f32 0x00000000#32) reducesTo_S600000x128_S128_d0 h_S_)
    (broadcastInDim S128 ![] bcast_S_S128 (constant S_ .f32 0x49127C00#32))

def refDev (h : Vec F S600000x128 .f32) : Vec F S600000x128 .f32 :=
  subf h (broadcastInDim S600000x128 ![0, 1] bcast_S1x128_S600000x128_0_1
    (Host.divf (broadcastInDim S1x128 ![1] bcast_S128_S1x128_1
        (Host.reduceAdd h (constant S_ .f32 0x00000000#32) reducesTo_S600000x128_S128_d0 h_S_))
      (broadcastInDim S1x128 ![] bcast_S_S1x128 (constant S_ .f32 0x49127C00#32))))

def refDof : Vec F S_ .f32 :=
  subf (constant S_ .f32 0x49127C00#32) (sitofp .f32 (constantI S_ 32 0#32))

def refVar (h : Vec F S600000x128 .f32) : Vec F S128 .f32 :=
  select (broadcastInDim S128 ![] bcast_S_S128 (cmpf .ogt (refDof (F := F)) (constant S_ .f32 0x00000000#32)))
    (Host.divf (Host.reduceAdd (mulf (refDev h) (refDev h)) (constant S_ .f32 0x00000000#32) reducesTo_S600000x128_S128_d0 h_S_)
      (broadcastInDim S128 ![] bcast_S_S128 (refDof (F := F))))
    (broadcastInDim S128 ![] bcast_S_S128 (id (constant S_ .f32 0x7FC00000#32)))

def refNorm (h : Vec F S600000x128 .f32) (g be : Vec F S128 .f32) : Vec F S600000x128 .f32 :=
  addf (mulf (mulf (subf h (refRow (refMean h)))
      (refRow (Host.rsqrt (addf (refVar h) (broadcastInDim S128 ![] bcast_S_S128 (constant S_ .f32 0x3727C5AC#32))))))
    (refRow g)) (refRow be)

def refRelu (y : Vec F S600000x128 .f32) : Vec F S600000x128 .f32 :=
  maximumf y (broadcastInDim S600000x128 ![] bcast_S_S600000x128 (constant S_ .f32 0x00000000#32))

def refLin1 (y : Vec F S600000x128 .f32) (w3 : Vec F S1x128 .f32) (b3 : Vec F S1 .f32) : Vec F S600000x1 .f32 :=
  addf (Host.dotGeneral dot_S600000x128_S1x128_S600000x1_1_1_0_0_n_n none y w3)
    (broadcastInDim S600000x1 ![0, 1] bcast_S1x1_S600000x1_0_1 (broadcastInDim S1x1 ![1] bcast_S1_S1x1_1 b3))

def refH1 (x : Vec F S50000x128 .f32) (ei : Vec F S2x600000 .i32) (w1 : Vec F S128x256 .f32) (b1 : Vec F S128 .f32) :
    Vec F S600000x128 .f32 :=
  refLin256 (refEf x ei) w1 b1

def refH2 (x : Vec F S50000x128 .f32) (ei : Vec F S2x600000 .i32) (w1 : Vec F S128x256 .f32) (b1 g1 be1 : Vec F S128 .f32)
    (w2 : Vec F S128x128 .f32) (b2 : Vec F S128 .f32) : Vec F S600000x128 .f32 :=
  refLin128 (refRelu (refNorm (refH1 x ei w1 b1) g1 be1)) w2 b2

def refOut (x : Vec F S50000x128 .f32) (ei : Vec F S2x600000 .i32) (w1 : Vec F S128x256 .f32) (b1 g1 be1 : Vec F S128 .f32)
    (w2 : Vec F S128x128 .f32) (b2 g2 be2 : Vec F S128 .f32) (w3 : Vec F S1x128 .f32) (b3 : Vec F S1 .f32) : Vec F S600000 .f32 :=
  shapeCast S600000 (refLin1 (refRelu (refNorm (refH2 x ei w1 b1 g1 be1 w2 b2) g2 be2)) w3 b3) shapeCasts_S600000x1_S600000

end Cert.ReferenceIdeal.Hand

end
-- ==== Proof.RefOps.lean ====
import proofs.«121905_j68624987455985_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.nullary main_c (constantI S_ 32 0#32),
    StableHlo.unary main_c main_v2 (broadcastInDim S600000 ![] bcast_S_S600000 : (⟨S_, .i32⟩ : BufTy).Contents (Elt F) → (⟨S600000, .i32⟩ : BufTy).Contents (Elt F)),
    StableHlo.binary main_v1 main_v2 main_v3 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v4 (broadcastInDim S600000 ![] bcast_S_S600000 : (⟨S_, .i32⟩ : BufTy).Contents (Elt F) → (⟨S600000, .i32⟩ : BufTy).Contents (Elt F)),
    StableHlo.binary main_v1 main_v4 main_v5 (addi : (⟨S600000, .i32⟩ : BufTy).Contents (Elt F) → (⟨S600000, .i32⟩ : BufTy).Contents (Elt F) → (⟨S600000, .i32⟩ : BufTy).Contents (Elt F)),
    StableHlo.ternary main_v3 main_v5 main_v1 main_v6 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v6 main_v7 (broadcastInDim S600000x1 ![0] bcast_S600000_S600000x1_0 : (⟨S600000, .i32⟩ : BufTy).Contents (Elt F) → (⟨S600000x1, .i32⟩ : BufTy).Contents (Elt F)),
    StableHlo.binary main_arg0 main_v7 main_v8 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v9 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v9 main_v10 rfl shapeCasts_S1x600000_S600000,
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v10 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v10 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v10 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v8 main_v17 main_v18 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    StableHlo.binary main_v18 main_arg2 main_v19 ((fun l r => Host.dotGeneral dot_S600000x256_S128x256_S600000x128_1_1_0_0_n_n none l r) : (⟨S600000x256, .f32⟩ : BufTy).Contents (Elt F) → (⟨S128x256, .f32⟩ : BufTy).Contents (Elt F) → (⟨S600000x128, .f32⟩ : BufTy).Contents (Elt F)),
    StableHlo.unary main_arg3 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S600000x128 ![0, 1] bcast_S1x128_S600000x128_0_1 : (⟨S1x128, .f32⟩ : BufTy).Contents (Elt F) → (⟨S600000x128, .f32⟩ : BufTy).Contents (Elt F)),
    StableHlo.binary main_v19 main_v21 main_v22 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.binary main_v22 main_cst main_v23 ((fun x v => Host.reduceAdd x v reducesTo_S600000x128_S128_d0 h_S_) : (⟨S600000x128, .f32⟩ : BufTy).Contents (Elt F) → (⟨S_, .f32⟩ : BufTy).Contents (Elt F) → (⟨S128, .f32⟩ : BufTy).Contents (Elt F)),
    StableHlo.nullary main_cst_3 (constant S_ .f32 0x49127C00#32),
    StableHlo.unary main_cst_3 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v22 : StableHlo.TRef sig ⟨S600000x128, .f32⟩) main_call0.cst main_call0.v0 (fun x v => Host.reduceAdd x v reducesTo_S600000x128_S128_d0 h_S_),
    StableHlo.TRef.unary main_call0.v0 main_call0.v1 (broadcastInDim S1x128 ![1] bcast_S128_S1x128_1),
    StableHlo.TRef.nullary main_call0.cst_0 (constant S_ .f32 0x49127C00#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S600000x128 ![0, 1] bcast_S1x128_S600000x128_0_1),
    StableHlo.TRef.binary (.of main_v22 : StableHlo.TRef sig ⟨S600000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x49127C00#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S600000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S600000x128 ![0, 1] bcast_S1x128_S600000x128_0_1 : (⟨S1x128, .f32⟩ : BufTy).Contents (Elt F) → (⟨S600000x128, .f32⟩ : BufTy).Contents (Elt F)),
    StableHlo.binary main_v22 main_v28 main_v29 (subf : (⟨S600000x128, .f32⟩ : BufTy).Contents (Elt F) → (⟨S600000x128, .f32⟩ : BufTy).Contents (Elt F) → (⟨S600000x128, .f32⟩ : BufTy).Contents (Elt F)),
    StableHlo.nullary main_cst_5 (constant S_ .f32 0x3727C5AC#32),
    StableHlo.unary main_cst_5 main_v30 (broadcastInDim S128 ![] bcast_S_S128 : (⟨S_, .f32⟩ : BufTy).Contents (Elt F) → (⟨S128, .f32⟩ : BufTy).Contents (Elt F)),
    StableHlo.binary main_v26 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S600000x128 ![0, 1] bcast_S1x128_S600000x128_0_1 : (⟨S1x128, .f32⟩ : BufTy).Contents (Elt F) → (⟨S600000x128, .f32⟩ : BufTy).Contents (Elt F)),
    StableHlo.binary main_v29 main_v34 main_v35 (mulf : (⟨S600000x128, .f32⟩ : BufTy).Contents (Elt F) → (⟨S600000x128, .f32⟩ : BufTy).Contents (Elt F) → (⟨S600000x128, .f32⟩ : BufTy).Contents (Elt F)),
    StableHlo.unary main_arg4 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S600000x128 ![0, 1] bcast_S1x128_S600000x128_0_1 : (⟨S1x128, .f32⟩ : BufTy).Contents (Elt F) → (⟨S600000x128, .f32⟩ : BufTy).Contents (Elt F)),
    StableHlo.binary main_v35 main_v37 main_v38 (mulf : (⟨S600000x128, .f32⟩ : BufTy).Contents (Elt F) → (⟨S600000x128, .f32⟩ : BufTy).Contents (Elt F) → (⟨S600000x128, .f32⟩ : BufTy).Contents (Elt F)),
    StableHlo.unary main_arg5 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S600000x128 ![0, 1] bcast_S1x128_S600000x128_0_1 : (⟨S1x128, .f32⟩ : BufTy).Contents (Elt F) → (⟨S600000x128, .f32⟩ : BufTy).Contents (Elt F)),
    StableHlo.binary main_v38 main_v40 main_v41 (addf : (⟨S600000x128, .f32⟩ : BufTy).Contents (Elt F) → (⟨S600000x128, .f32⟩ : BufTy).Contents (Elt F) → (⟨S600000x128, .f32⟩ : BufTy).Contents (Elt F)),
    StableHlo.TRef.nullary main_call1.cst (constant S_ .f32 0x00000000#32),
    StableHlo.TRef.unary main_call1.cst main_call1.v0 (broadcastInDim S600000x128 ![] bcast_S_S600000x128),
    StableHlo.TRef.binary (.of main_v41 : StableHlo.TRef sig ⟨S600000x128, .f32⟩) main_call1.v0 main_call1.v1 maximumf,
    StableHlo.binary main_v42 main_arg6 main_v43 ((fun l r => Host.dotGeneral dot_S600000x128_S128x128_S600000x128_1_1_0_0_n_n none l r) : (⟨S600000x128, .f32⟩ : BufTy).Contents (Elt F) → (⟨S128x128, .f32⟩ : BufTy).Contents (Elt F) → (⟨S600000x128, .f32⟩ : BufTy).Contents (Elt F)),
    StableHlo.unary main_arg7 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S600000x128 ![0, 1] bcast_S1x128_S600000x128_0_1 : (⟨S1x128, .f32⟩ : BufTy).Contents (Elt F) → (⟨S600000x128, .f32⟩ : BufTy).Contents (Elt F)),
    StableHlo.binary main_v43 main_v45 main_v46 (addf : (⟨S600000x128, .f32⟩ : BufTy).Contents (Elt F) → (⟨S600000x128, .f32⟩ : BufTy).Contents (Elt F) → (⟨S600000x128, .f32⟩ : BufTy).Contents (Elt F)),
    StableHlo.nullary main_cst_6 (constant S_ .f32 0x00000000#32),
    StableHlo.binary main_v46 main_cst_6 main_v47 ((fun x v => Host.reduceAdd x v reducesTo_S600000x128_S128_d0 h_S_) : (⟨S600000x128, .f32⟩ : BufTy).Contents (Elt F) → (⟨S_, .f32⟩ : BufTy).Contents (Elt F) → (⟨S128, .f32⟩ : BufTy).Contents (Elt F)),
    StableHlo.nullary main_cst_7 (constant S_ .f32 0x49127C00#32),
    StableHlo.unary main_cst_7 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)) ]

set_option maxRecDepth 8192 in
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub ..⟩

abbrev ops1 : List (HloOp τ sig (Elt F)) :=
  [ StableHlo.nullary main_c_8 (constantI S_ 32 0#32),
    StableHlo.TRef.nullary main_call2.cst (constant S_ .f32 0x00000000#32),
    StableHlo.TRef.binary (.of main_v46 : StableHlo.TRef sig ⟨S600000x128, .f32⟩) main_call2.cst main_call2.v0 (fun x v => Host.reduceAdd x v reducesTo_S600000x128_S128_d0 h_S_),
    StableHlo.TRef.unary main_call2.v0 main_call2.v1 (broadcastInDim S1x128 ![1] bcast_S128_S1x128_1),
    StableHlo.TRef.nullary main_call2.cst_0 (constant S_ .f32 0x49127C00#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S600000x128 ![0, 1] bcast_S1x128_S600000x128_0_1),
    StableHlo.TRef.binary (.of main_v46 : StableHlo.TRef sig ⟨S600000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x49127C00#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S600000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S600000x128 ![0, 1] bcast_S1x128_S600000x128_0_1 : (⟨S1x128, .f32⟩ : BufTy).Contents (Elt F) → (⟨S600000x128, .f32⟩ : BufTy).Contents (Elt F)),
    StableHlo.binary main_v46 main_v52 main_v53 (subf : (⟨S600000x128, .f32⟩ : BufTy).Contents (Elt F) → (⟨S600000x128, .f32⟩ : BufTy).Contents (Elt F) → (⟨S600000x128, .f32⟩ : BufTy).Contents (Elt F)),
    StableHlo.nullary main_cst_9 (constant S_ .f32 0x3727C5AC#32),
    StableHlo.unary main_cst_9 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S600000x128 ![0, 1] bcast_S1x128_S600000x128_0_1 : (⟨S1x128, .f32⟩ : BufTy).Contents (Elt F) → (⟨S600000x128, .f32⟩ : BufTy).Contents (Elt F)),
    StableHlo.binary main_v53 main_v58 main_v59 (mulf : (⟨S600000x128, .f32⟩ : BufTy).Contents (Elt F) → (⟨S600000x128, .f32⟩ : BufTy).Contents (Elt F) → (⟨S600000x128, .f32⟩ : BufTy).Contents (Elt F)),
    StableHlo.unary main_arg8 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S600000x128 ![0, 1] bcast_S1x128_S600000x128_0_1 : (⟨S1x128, .f32⟩ : BufTy).Contents (Elt F) → (⟨S600000x128, .f32⟩ : BufTy).Contents (Elt F)),
    StableHlo.binary main_v59 main_v61 main_v62 (mulf : (⟨S600000x128, .f32⟩ : BufTy).Contents (Elt F) → (⟨S600000x128, .f32⟩ : BufTy).Contents (Elt F) → (⟨S600000x128, .f32⟩ : BufTy).Contents (Elt F)),
    StableHlo.unary main_arg9 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S600000x128 ![0, 1] bcast_S1x128_S600000x128_0_1 : (⟨S1x128, .f32⟩ : BufTy).Contents (Elt F) → (⟨S600000x128, .f32⟩ : BufTy).Contents (Elt F)),
    StableHlo.binary main_v62 main_v64 main_v65 (addf : (⟨S600000x128, .f32⟩ : BufTy).Contents (Elt F) → (⟨S600000x128, .f32⟩ : BufTy).Contents (Elt F) → (⟨S600000x128, .f32⟩ : BufTy).Contents (Elt F)),
    StableHlo.TRef.nullary main_call3.cst (constant S_ .f32 0x00000000#32),
    StableHlo.TRef.unary main_call3.cst main_call3.v0 (broadcastInDim S600000x128 ![] bcast_S_S600000x128),
    StableHlo.TRef.binary (.of main_v65 : StableHlo.TRef sig ⟨S600000x128, .f32⟩) main_call3.v0 main_call3.v1 maximumf,
    StableHlo.binary main_v66 main_arg10 main_v67 ((fun l r => Host.dotGeneral dot_S600000x128_S1x128_S600000x1_1_1_0_0_n_n none l r) : (⟨S600000x128, .f32⟩ : BufTy).Contents (Elt F) → (⟨S1x128, .f32⟩ : BufTy).Contents (Elt F) → (⟨S600000x1, .f32⟩ : BufTy).Contents (Elt F)),
    StableHlo.unary main_arg11 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S600000x1 ![0, 1] bcast_S1x1_S600000x1_0_1 : (⟨S1x1, .f32⟩ : BufTy).Contents (Elt F) → (⟨S600000x1, .f32⟩ : BufTy).Contents (Elt F)),
    StableHlo.binary main_v67 main_v69 main_v70 (addf : (⟨S600000x1, .f32⟩ : BufTy).Contents (Elt F) → (⟨S600000x1, .f32⟩ : BufTy).Contents (Elt F) → (⟨S600000x1, .f32⟩ : BufTy).Contents (Elt F)),
    StableHlo.reshape main_v70 main_v71 rfl shapeCasts_S600000x1_S600000 ]

set_option maxRecDepth 8192 in
theorem ops1_sub : (ops1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

end Cert.ReferenceIdeal.Hand

end
-- ==== Proof.RefRun.lean ====
import proofs.«121905_j68624987455985_1_alg».proof.Proof.RefOut
import proofs.«121905_j68624987455985_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ ops1

set_option maxRecDepth 8192 in
set_option maxHeartbeats 4000000 in

theorem main_part0_eq (c : Dev nD) : main_part0 (F := F) c = seq ops0 := rfl

set_option maxRecDepth 8192 in
set_option maxHeartbeats 4000000 in

theorem main_part1_eq (c : Dev nD) : main_part1 (F := F) c = seq ops1 := rfl

theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

def normOf (h : Vec F S600000x128 .f32) (mu var g be : Vec F S128 .f32) : Vec F S600000x128 .f32 :=
  addf (mulf (mulf (subf h (refRow mu))
      (refRow (Host.rsqrt (addf var (broadcastInDim S128 ![] bcast_S_S128 (constant S_ .f32 0x3727C5AC#32))))))
    (refRow g)) (refRow be)

theorem refNorm_eq (h : Vec F S600000x128 .f32) (g be : Vec F S128 .f32) :
    refNorm h g be = normOf h (refMean h) (refVar h) g be := rfl

set_option maxRecDepth 8192 in
set_option maxHeartbeats 16000000 in

theorem w0_v46 (V : Valuation τ sig (Elt F)) :
    after ops0 V (Proc.devRef .tc main_v46) = refH2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops0]
  after_results_simp
  rfl

set_option maxRecDepth 8192 in
set_option maxHeartbeats 16000000 in

theorem w0_v49 (V : Valuation τ sig (Elt F)) :
    after ops0 V (Proc.devRef .tc main_v49) = refMean (refH2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  simp only [ops0]
  after_results_simp
  rfl

abbrev args : List (Ref sig .tc) :=
  [main_arg0, main_arg1, main_arg2, main_arg3, main_arg4, main_arg5, main_arg6, main_arg7, main_arg8, main_arg9,
    main_arg10, main_arg11]

/-- Operations none of which writes an argument array leave every argument array as it was. -/
theorem args_kept {l : List (HloOp τ sig (Elt F))}
    (h : l.Forall fun op => ∀ r ∈ args, Proc.devRef (τ := τ) .tc r ∉ op.writes) (V : Valuation τ sig (Elt F)) :
    ∀ r ∈ args, after l V (Proc.devRef .tc r) = V (Proc.devRef .tc r) := fun r hr =>
  after_of_forall_not_mem l V fun op hop => List.forall_iff_forall_mem.mp h op hop r hr

set_option maxRecDepth 8192 in
/-- Each operation writes its own result only, and no result is an argument. -/
theorem ops0_keep : (ops0 : List (HloOp τ sig (Elt F))).Forall fun op => ∀ r ∈ args, Proc.devRef (τ := τ) .tc r ∉ op.writes := by
  simp only [ops0, List.Forall, nullary_writes, unary_writes, binary_writes, ternary_writes, reshape_writes,
    Finset.mem_singleton, (Proc.devRef_injective _).eq_iff]
  repeat' constructor
  all_goals decide

set_option maxRecDepth 8192 in
theorem ops1_keep : (ops1 : List (HloOp τ sig (Elt F))).Forall fun op => ∀ r ∈ args, Proc.devRef (τ := τ) .tc r ∉ op.writes := by
  simp only [ops1, List.Forall, nullary_writes, unary_writes, binary_writes, ternary_writes, reshape_writes,
    Finset.mem_singleton, (Proc.devRef_injective _).eq_iff]
  repeat' constructor
  all_goals decide

set_option maxRecDepth 8192 in
set_option maxHeartbeats 16000000 in

theorem w1_v71 (W : Valuation τ sig (Elt F)) :
    after ops1 W (Proc.devRef .tc main_v71)
      = shapeCast S600000 (refLin1 (refRelu (normOf (W (Proc.devRef .tc main_v46)) (W (Proc.devRef .tc main_v49))
            (refVar (W (Proc.devRef .tc main_v46))) (W (Proc.devRef .tc main_arg8)) (W (Proc.devRef .tc main_arg9))))
          (W (Proc.devRef .tc main_arg10)) (W (Proc.devRef .tc main_arg11))) shapeCasts_S600000x1_S600000 := by
  simp only [ops1]
  after_results_simp
  rfl

theorem out_eq (V : Valuation τ sig (Elt F)) :
    after ops V (Proc.devRef .tc main_v71) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [show (ops : List (HloOp τ sig (Elt F))) = ops0 ++ ops1 from rfl, after_concat, w1_v71, w0_v46, w0_v49,
    args_kept ops0_keep V main_arg8 (by decide), args_kept ops0_keep V main_arg9 (by decide),
    args_kept ops0_keep V main_arg10 (by decide), args_kept ops0_keep V main_arg11 (by decide), refOut, refNorm_eq]

theorem arg_eq (V : Valuation τ sig (Elt F)) : ∀ r ∈ args, after ops V (Proc.devRef .tc r) = V (Proc.devRef .tc r) := fun r hr => by
  rw [show (ops : List (HloOp τ sig (Elt F))) = ops0 ++ ops1 from rfl, after_concat, args_kept ops1_keep _ r hr, args_kept ops0_keep V r hr]

/-- The twelve argument arrays read in `mem` as they do in `m`. -/
abbrev Kept (mem m : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ Kept r.2.mem m c :=
  (θ_run defs _ _).mono (fun s h c =>
    have H : ∀ r ∈ args, s.2.mem ((c.tc : Thread nD τ).loc r) = m ((c.tc : Thread nD τ).loc r) := fun r hr =>
      (h c r).trans (arg_eq (launchContents m c) r hr)
    ⟨(h c main_v71).trans (out_eq (launchContents m c)), H _ (by decide), H _ (by decide), H _ (by decide),
      H _ (by decide), H _ (by decide), H _ (by decide), H _ (by decide), H _ (by decide), H _ (by decide),
      H _ (by decide), H _ (by decide), H _ (by decide)⟩)
    (run_seq scopedRefs_eq scopedSems_eq defs main (fun _ => ops) main_eq (fun _ => ops_sub) m ρ)

theorem frame (m : (ℓ : Loc nD τ sig) → Buf (Elt F) ℓ) (ρ : Dev nD → PrngReg) :
    θ_run defs (onTc (τ := τ) (main (F := F))) ⟨m, fun _ => 0, ρ⟩ fun r => ∀ c : Dev nD, Kept r.2.mem m c :=
  (θ_run defs _ _).mono (fun _ h c => (h c).2) (run m ρ)

end Cert.ReferenceIdeal.Hand

end
-- ==== Proof.RefStages.lean ====
import proofs.«121905_j68624987455985_1_alg».proof.Proof.RefOut
import proofs.«121905_j68624987455985_1_alg».proof.Proof.Spec
import Idealize.ShloMosaic.Lib.IdealHost
import Idealize.ShloMosaic.Lib.Pipeline.Value

noncomputable section

open scoped BigOperators

namespace Cert.ReferenceIdeal.HandV

open Cert.ReferenceIdeal Cert.ReferenceIdeal.Hand Idealize.ShloMosaic Idealize.ShloMosaic.ValueIdx

theorem lhs256_0 (j : S600000x128.Idx) (k : dot_S600000x256_S128x256_S600000x128_1_1_0_0_n_n.contr.Idx) :
    (dot_S600000x256_S128x256_S600000x128_1_1_0_0_n_n.lhsIdx j k 0 : ℕ) = j 0 := by
  simp [DotDims.lhsIdx, dot_S600000x256_S128x256_S600000x128_1_1_0_0_n_n]; rfl
theorem lhs256_1 (j : S600000x128.Idx) (k : dot_S600000x256_S128x256_S600000x128_1_1_0_0_n_n.contr.Idx) :
    (dot_S600000x256_S128x256_S600000x128_1_1_0_0_n_n.lhsIdx j k 1 : ℕ) = k ⟨0, by decide⟩ := by
  simp [DotDims.lhsIdx, dot_S600000x256_S128x256_S600000x128_1_1_0_0_n_n]; rfl
theorem rhs256_0 (j : S600000x128.Idx) (k : dot_S600000x256_S128x256_S600000x128_1_1_0_0_n_n.contr.Idx) :
    (dot_S600000x256_S128x256_S600000x128_1_1_0_0_n_n.rhsIdx j k 0 : ℕ) = j 1 := by
  simp [DotDims.rhsIdx, dot_S600000x256_S128x256_S600000x128_1_1_0_0_n_n]; rfl
theorem rhs256_1 (j : S600000x128.Idx) (k : dot_S600000x256_S128x256_S600000x128_1_1_0_0_n_n.contr.Idx) :
    (dot_S600000x256_S128x256_S600000x128_1_1_0_0_n_n.rhsIdx j k 1 : ℕ) = k ⟨0, by decide⟩ := by
  simp [DotDims.rhsIdx, dot_S600000x256_S128x256_S600000x128_1_1_0_0_n_n]; rfl

theorem lhs128_0 (j : S600000x128.Idx) (k : dot_S600000x128_S128x128_S600000x128_1_1_0_0_n_n.contr.Idx) :
    (dot_S600000x128_S128x128_S600000x128_1_1_0_0_n_n.lhsIdx j k 0 : ℕ) = j 0 := by
  simp [DotDims.lhsIdx, dot_S600000x128_S128x128_S600000x128_1_1_0_0_n_n]; rfl
theorem lhs128_1 (j : S600000x128.Idx) (k : dot_S600000x128_S128x128_S600000x128_1_1_0_0_n_n.contr.Idx) :
    (dot_S600000x128_S128x128_S600000x128_1_1_0_0_n_n.lhsIdx j k 1 : ℕ) = k ⟨0, by decide⟩ := by
  simp [DotDims.lhsIdx, dot_S600000x128_S128x128_S600000x128_1_1_0_0_n_n]; rfl
theorem rhs128_0 (j : S600000x128.Idx) (k : dot_S600000x128_S128x128_S600000x128_1_1_0_0_n_n.contr.Idx) :
    (dot_S600000x128_S128x128_S600000x128_1_1_0_0_n_n.rhsIdx j k 0 : ℕ) = j 1 := by
  simp [DotDims.rhsIdx, dot_S600000x128_S128x128_S600000x128_1_1_0_0_n_n]; rfl
theorem rhs128_1 (j : S600000x128.Idx) (k : dot_S600000x128_S128x128_S600000x128_1_1_0_0_n_n.contr.Idx) :
    (dot_S600000x128_S128x128_S600000x128_1_1_0_0_n_n.rhsIdx j k 1 : ℕ) = k ⟨0, by decide⟩ := by
  simp [DotDims.rhsIdx, dot_S600000x128_S128x128_S600000x128_1_1_0_0_n_n]; rfl

theorem lhs1_0 (j : S600000x1.Idx) (k : dot_S600000x128_S1x128_S600000x1_1_1_0_0_n_n.contr.Idx) :
    (dot_S600000x128_S1x128_S600000x1_1_1_0_0_n_n.lhsIdx j k 0 : ℕ) = j 0 := by
  simp [DotDims.lhsIdx, dot_S600000x128_S1x128_S600000x1_1_1_0_0_n_n]; rfl
theorem lhs1_1 (j : S600000x1.Idx) (k : dot_S600000x128_S1x128_S600000x1_1_1_0_0_n_n.contr.Idx) :
    (dot_S600000x128_S1x128_S600000x1_1_1_0_0_n_n.lhsIdx j k 1 : ℕ) = k ⟨0, by decide⟩ := by
  simp [DotDims.lhsIdx, dot_S600000x128_S1x128_S600000x1_1_1_0_0_n_n]; rfl
theorem rhs1_0 (j : S600000x1.Idx) (k : dot_S600000x128_S1x128_S600000x1_1_1_0_0_n_n.contr.Idx) :
    (dot_S600000x128_S1x128_S600000x1_1_1_0_0_n_n.rhsIdx j k 0 : ℕ) = 0 :=
  Nat.lt_one_iff.mp (dot_S600000x128_S1x128_S600000x1_1_1_0_0_n_n.rhsIdx j k 0).isLt
theorem rhs1_1 (j : S600000x1.Idx) (k : dot_S600000x128_S1x128_S600000x1_1_1_0_0_n_n.contr.Idx) :
    (dot_S600000x128_S1x128_S600000x1_1_1_0_0_n_n.rhsIdx j k 1 : ℕ) = k ⟨0, by decide⟩ := by
  simp [DotDims.rhsIdx, dot_S600000x128_S1x128_S600000x1_1_1_0_0_n_n]; rfl

theorem dot256_apply (l : FVec Ideal S600000x256 .f32) (r : FVec Ideal S128x256 .f32) (e : Fin 600000) (o : Fin 128) :
    Host.dotGeneral dot_S600000x256_S128x256_S600000x128_1_1_0_0_n_n none l r (ix2 e o) = ∑ k : Fin 256, l (ix2 e k) * r (ix2 o k) := by
  refine (Ideal.dotGeneral_apply dot_S600000x256_S128x256_S600000x128_1_1_0_0_n_n none .single l r (ix2 e o)).trans ?_
  rw [← Equiv.sum_comp (contrEquiv1 dot_S600000x256_S128x256_S600000x128_1_1_0_0_n_n 256 rfl rfl).symm]
  refine Finset.sum_congr rfl fun c _ => ?_
  have hc := contrEquiv1_symm_val dot_S600000x256_S128x256_S600000x128_1_1_0_0_n_n 256 rfl rfl c
  have hl : dot_S600000x256_S128x256_S600000x128_1_1_0_0_n_n.lhsIdx (ix2 e o) ((contrEquiv1 dot_S600000x256_S128x256_S600000x128_1_1_0_0_n_n 256 rfl rfl).symm c) = ix2 e c := by
    funext a; refine Fin.ext ?_
    match a with
    | ⟨0, _⟩ => exact lhs256_0 _ _
    | ⟨1, _⟩ => exact (lhs256_1 _ _).trans hc
  have hr : dot_S600000x256_S128x256_S600000x128_1_1_0_0_n_n.rhsIdx (ix2 e o) ((contrEquiv1 dot_S600000x256_S128x256_S600000x128_1_1_0_0_n_n 256 rfl rfl).symm c) = ix2 o c := by
    funext a; refine Fin.ext ?_
    match a with
    | ⟨0, _⟩ => exact rhs256_0 _ _
    | ⟨1, _⟩ => exact (rhs256_1 _ _).trans hc
  rw [hl, hr]

theorem dot128_apply (l : FVec Ideal S600000x128 .f32) (r : FVec Ideal S128x128 .f32) (e : Fin 600000) (o : Fin 128) :
    Host.dotGeneral dot_S600000x128_S128x128_S600000x128_1_1_0_0_n_n none l r (ix2 e o) = ∑ k : Fin 128, l (ix2 e k) * r (ix2 o k) := by
  refine (Ideal.dotGeneral_apply dot_S600000x128_S128x128_S600000x128_1_1_0_0_n_n none .single l r (ix2 e o)).trans ?_
  rw [← Equiv.sum_comp (contrEquiv1 dot_S600000x128_S128x128_S600000x128_1_1_0_0_n_n 128 rfl rfl).symm]
  refine Finset.sum_congr rfl fun c _ => ?_
  have hc := contrEquiv1_symm_val dot_S600000x128_S128x128_S600000x128_1_1_0_0_n_n 128 rfl rfl c
  have hl : dot_S600000x128_S128x128_S600000x128_1_1_0_0_n_n.lhsIdx (ix2 e o) ((contrEquiv1 dot_S600000x128_S128x128_S600000x128_1_1_0_0_n_n 128 rfl rfl).symm c) = ix2 e c := by
    funext a; refine Fin.ext ?_
    match a with
    | ⟨0, _⟩ => exact lhs128_0 _ _
    | ⟨1, _⟩ => exact (lhs128_1 _ _).trans hc
  have hr : dot_S600000x128_S128x128_S600000x128_1_1_0_0_n_n.rhsIdx (ix2 e o) ((contrEquiv1 dot_S600000x128_S128x128_S600000x128_1_1_0_0_n_n 128 rfl rfl).symm c) = ix2 o c := by
    funext a; refine Fin.ext ?_
    match a with
    | ⟨0, _⟩ => exact rhs128_0 _ _
    | ⟨1, _⟩ => exact (rhs128_1 _ _).trans hc
  rw [hl, hr]

theorem dot1_apply (l : FVec Ideal S600000x128 .f32) (r : FVec Ideal S1x128 .f32) (e : Fin 600000) (u : Fin 1) :
    Host.dotGeneral dot_S600000x128_S1x128_S600000x1_1_1_0_0_n_n none l r (ix2 e u) = ∑ k : Fin 128, l (ix2 e k) * r (ix2 u k) := by
  refine (Ideal.dotGeneral_apply dot_S600000x128_S1x128_S600000x1_1_1_0_0_n_n none .single l r (ix2 e u)).trans ?_
  rw [← Equiv.sum_comp (contrEquiv1 dot_S600000x128_S1x128_S600000x1_1_1_0_0_n_n 128 rfl rfl).symm]
  refine Finset.sum_congr rfl fun c _ => ?_
  have hc := contrEquiv1_symm_val dot_S600000x128_S1x128_S600000x1_1_1_0_0_n_n 128 rfl rfl c
  have hl : dot_S600000x128_S1x128_S600000x1_1_1_0_0_n_n.lhsIdx (ix2 e u) ((contrEquiv1 dot_S600000x128_S1x128_S600000x1_1_1_0_0_n_n 128 rfl rfl).symm c) = ix2 e c := by
    funext a; refine Fin.ext ?_
    match a with
    | ⟨0, _⟩ => exact lhs1_0 _ _
    | ⟨1, _⟩ => exact (lhs1_1 _ _).trans hc
  have hr : dot_S600000x128_S1x128_S600000x1_1_1_0_0_n_n.rhsIdx (ix2 e u) ((contrEquiv1 dot_S600000x128_S1x128_S600000x1_1_1_0_0_n_n 128 rfl rfl).symm c) = ix2 u c := by
    funext a; refine Fin.ext ?_
    match a with
    | ⟨0, _⟩ => exact (rhs1_0 _ _).trans (Nat.lt_one_iff.mp u.isLt).symm
    | ⟨1, _⟩ => exact (rhs1_1 _ _).trans hc
  rw [hl, hr]

theorem reduces_rows : S600000x128.Reduces [0] S128 := by decide

theorem colReduce_apply (x : FVec Ideal S600000x128 .f32) (v : FVec Ideal S_ .f32) (h : S600000x128.ReducesTo [0] S128)
    (hu : 0 < S_.numel) (o : Fin 128) :
    Host.reduceAdd x v h hu (ix1 o) = v ix0 + ∑ e : Fin 600000, x (ix2 e o) := by
  rw [hostReduceAdd_apply, Ideal.hostReduceAdd_single h reduces_rows]
  have h0 : Shape.Idx.first hu = ix0 := funext fun a => a.elim0
  rw [h0]
  refine congrArg (v ix0 + ·) (Finset.sum_congr rfl fun k _ => congrArg x ?_)
  funext a; refine Fin.ext ?_
  match a with
  | ⟨0, _⟩ => rfl
  | ⟨1, _⟩ => rfl

theorem bcastRow_apply {α : Type} (h : S128.BroadcastsInDim S1x128 (![1] : Fin 1 → Fin S1x128.rank)) (x : S128.Idx → α)
    (u : Fin 1) (o : Fin 128) : broadcastInDim S1x128 ![1] h x (ix2 u o) = x (ix1 o) :=
  broadcastInDim_apply _ h x _ _ (fun a => match a with | ⟨0, _⟩ => rfl)

theorem bcastRows_apply {α : Type} (h : S1x128.BroadcastsInDim S600000x128 (![0, 1] : Fin 2 → Fin S600000x128.rank))
    (x : S1x128.Idx → α) (e : Fin 600000) (o : Fin 128) :
    broadcastInDim S600000x128 ![0, 1] h x (ix2 e o) = x (ix2 (0 : Fin 1) o) :=
  broadcastInDim_apply _ h x _ _ (fun a => match a with | ⟨0, _⟩ => rfl | ⟨1, _⟩ => rfl)

theorem refRow_apply (b : FVec Ideal S128 .f32) (e : Fin 600000) (o : Fin 128) :
    refRow (F := Ideal) b (ix2 e o) = b (ix1 o) := by
  unfold refRow
  rw [bcastRows_apply, bcastRow_apply]

theorem bcastOne_apply {α : Type} (h : S1.BroadcastsInDim S1x1 (![1] : Fin 1 → Fin S1x1.rank)) (x : S1.Idx → α)
    (u v : Fin 1) : broadcastInDim S1x1 ![1] h x (ix2 u v) = x (ix1 (0 : Fin 1)) :=
  broadcastInDim_apply _ h x _ _ (fun a => match a with | ⟨0, _⟩ => rfl)

theorem bcastCol_apply {α : Type} (h : S1x1.BroadcastsInDim S600000x1 (![0, 1] : Fin 2 → Fin S600000x1.rank))
    (x : S1x1.Idx → α) (e : Fin 600000) (u : Fin 1) :
    broadcastInDim S600000x1 ![0, 1] h x (ix2 e u) = x (ix2 (0 : Fin 1) (0 : Fin 1)) :=
  broadcastInDim_apply _ h x _ _ (fun a => match a with | ⟨0, _⟩ => rfl | ⟨1, _⟩ => rfl)

theorem colAsVec_apply {α : Type} (h : S600000x1.ShapeCasts S600000) (x : S600000x1.Idx → α) (e : Fin 600000) :
    shapeCast S600000 x h (ix1 e) = x (ix2 e (0 : Fin 1)) :=
  shapeCast_apply x h (ix1 e) (ix2 e (0 : Fin 1)) (by
    rw [Shape.rowMajor_val_two, Shape.rowMajor_val_one]
    show e.val * 1 + 0 = e.val
    omega)

theorem nRows_pos : (0 : EReal) < Cert.Spec.nRows := by
  have h : Cert.Spec.nRows = ((600000 : ℝ) : EReal) := by
    unfold Cert.Spec.nRows
    simp [Ideal.ofBits, Ideal.ieee, -EReal.coe_mul]; norm_num
  rw [h]
  exact EReal.coe_pos.mpr (by norm_num)

theorem refDof_apply : refDof (F := Ideal) ix0 = Cert.Spec.nRows := by
  show Ideal.ofBits .f32 0x49127C00#32 - ((((0#32 : BitVec 32).toInt : ℤ) : ℝ) : EReal) = Cert.Spec.nRows
  unfold Cert.Spec.nRows
  simp

theorem cmp_ogt_of_lt {x y : EReal} (h : y < x) : Ideal.cmp .ogt x y = 1#1 := by
  unfold Ideal.cmp
  simp [h]

theorem dof_gt_zero_bit : FloatOps.cmpf (F := Ideal) (φ := .f32) .ogt Cert.Spec.nRows (0 : EReal) = 1#1 :=
  cmp_ogt_of_lt nRows_pos

theorem hostRsqrt_apply {s : Shape} {φ : FTy} (x : FVec Ideal s φ) (i : s.Idx) : Host.rsqrt x i = Ideal.rsqrt (x i) := rfl

theorem refLin256_apply (ef : FVec Ideal S600000x256 .f32) (w : FVec Ideal S128x256 .f32) (b : FVec Ideal S128 .f32)
    (e : Fin 600000) (o : Fin 128) :
    refLin256 (F := Ideal) ef w b (ix2 e o)
      = Cert.Spec.lin (K := 256) (fun e k => ef (ix2 e k)) (fun o k => w (ix2 o k)) (fun o => b (ix1 o)) e o := by
  unfold refLin256 Cert.Spec.lin
  rw [addf_apply, dot256_apply, refRow_apply]

theorem refLin128_apply (y : FVec Ideal S600000x128 .f32) (w : FVec Ideal S128x128 .f32) (b : FVec Ideal S128 .f32)
    (e : Fin 600000) (o : Fin 128) :
    refLin128 (F := Ideal) y w b (ix2 e o)
      = Cert.Spec.lin (K := 128) (fun e k => y (ix2 e k)) (fun o k => w (ix2 o k)) (fun o => b (ix1 o)) e o := by
  unfold refLin128 Cert.Spec.lin
  rw [addf_apply, dot128_apply, refRow_apply]

theorem refLin1_apply (y : FVec Ideal S600000x128 .f32) (w3 : FVec Ideal S1x128 .f32) (b3 : FVec Ideal S1 .f32)
    (e : Fin 600000) :
    refLin1 (F := Ideal) y w3 b3 (ix2 e (0 : Fin 1))
      = Cert.Spec.lin1 (fun e k => y (ix2 e k)) (fun k => w3 (ix2 (0 : Fin 1) k)) (b3 (ix1 (0 : Fin 1))) e := by
  unfold refLin1 Cert.Spec.lin1
  rw [addf_apply, dot1_apply, bcastCol_apply, bcastOne_apply]

theorem refMean_apply (h : FVec Ideal S600000x128 .f32) (o : Fin 128) :
    refMean (F := Ideal) h (ix1 o) = Cert.Spec.mean (fun e o => h (ix2 e o)) o := by
  unfold refMean Cert.Spec.mean Cert.Spec.colSum Cert.Spec.nRows
  rw [hostDivf_apply, colReduce_apply, broadcastInDim_scalar_apply, constant_apply, constant_apply,
    Ideal.ofBits_zero_f32, zero_add]

theorem refDev_apply (h : FVec Ideal S600000x128 .f32) (e : Fin 600000) (o : Fin 128) :
    refDev (F := Ideal) h (ix2 e o) = h (ix2 e o) - Cert.Spec.mean (fun e o => h (ix2 e o)) o := by
  unfold refDev Cert.Spec.mean Cert.Spec.colSum Cert.Spec.nRows
  rw [subf_apply, bcastRows_apply, hostDivf_apply, bcastRow_apply, colReduce_apply, broadcastInDim_scalar_apply,
    constant_apply, constant_apply, Ideal.ofBits_zero_f32, zero_add]

theorem refVar_apply (h : FVec Ideal S600000x128 .f32) (o : Fin 128) :
    refVar (F := Ideal) h (ix1 o) = Cert.Spec.varR (fun e o => h (ix2 e o)) o := by
  unfold refVar Cert.Spec.varR
  simp only [select_apply, hostDivf_apply, colReduce_apply, mulf_apply, refDev_apply]
  rw [broadcastInDim_scalar_apply, broadcastInDim_scalar_apply, broadcastInDim_scalar_apply]
  simp only [cmpf_apply, refDof_apply, constant_apply, Ideal.ofBits_zero_f32, dof_gt_zero_bit, select_one, zero_add]

theorem refAct_apply (h : FVec Ideal S600000x128 .f32) (g be : FVec Ideal S128 .f32) (e : Fin 600000) (o : Fin 128) :
    refRelu (F := Ideal) (refNorm (F := Ideal) h g be) (ix2 e o)
      = Cert.Spec.actR (fun e o => h (ix2 e o)) (fun o => g (ix1 o)) (fun o => be (ix1 o)) e o := by
  unfold refRelu refNorm Cert.Spec.actR Cert.Spec.fzero Cert.Spec.eps
  simp only [maximumf_apply, addf_apply, mulf_apply, subf_apply, refRow_apply, refMean_apply, hostRsqrt_apply,
    refVar_apply]
  rw [broadcastInDim_scalar_apply, broadcastInDim_scalar_apply, constant_apply, constant_apply]

theorem refOut_apply (x : FVec Ideal S50000x128 .f32) (ei : IVec S2x600000 32) (w1 : FVec Ideal S128x256 .f32)
    (b1 g1 be1 : FVec Ideal S128 .f32) (w2 : FVec Ideal S128x128 .f32) (b2 g2 be2 : FVec Ideal S128 .f32)
    (w3 : FVec Ideal S1x128 .f32) (b3 : FVec Ideal S1 .f32) (e : Fin 600000) :
    refOut (F := Ideal) x ei w1 b1 g1 be1 w2 b2 g2 be2 w3 b3 (ix1 e)
      = Cert.Spec.GR (fun e k => refEf (F := Ideal) x ei (ix2 e k)) (fun o k => w1 (ix2 o k)) (fun o => b1 (ix1 o))
          (fun o => g1 (ix1 o)) (fun o => be1 (ix1 o)) (fun o k => w2 (ix2 o k)) (fun o => b2 (ix1 o))
          (fun o => g2 (ix1 o)) (fun o => be2 (ix1 o)) (fun k => w3 (ix2 (0 : Fin 1) k)) (b3 (ix1 (0 : Fin 1))) e := by
  have h1 : (fun e o => refH1 (F := Ideal) x ei w1 b1 (ix2 e o))
      = Cert.Spec.lin (K := 256) (fun e k => refEf (F := Ideal) x ei (ix2 e k)) (fun o k => w1 (ix2 o k)) (fun o => b1 (ix1 o)) :=
    funext fun e => funext fun o => refLin256_apply _ _ _ e o
  have a1 : (fun e o => refRelu (F := Ideal) (refNorm (F := Ideal) (refH1 (F := Ideal) x ei w1 b1) g1 be1) (ix2 e o))
      = Cert.Spec.actR (Cert.Spec.lin (K := 256) (fun e k => refEf (F := Ideal) x ei (ix2 e k)) (fun o k => w1 (ix2 o k))
          (fun o => b1 (ix1 o))) (fun o => g1 (ix1 o)) (fun o => be1 (ix1 o)) := by
    funext e o
    rw [refAct_apply, h1]
  have h2 : (fun e o => refH2 (F := Ideal) x ei w1 b1 g1 be1 w2 b2 (ix2 e o))
      = Cert.Spec.lin (K := 128) (Cert.Spec.actR (Cert.Spec.lin (K := 256) (fun e k => refEf (F := Ideal) x ei (ix2 e k))
          (fun o k => w1 (ix2 o k)) (fun o => b1 (ix1 o))) (fun o => g1 (ix1 o)) (fun o => be1 (ix1 o)))
          (fun o k => w2 (ix2 o k)) (fun o => b2 (ix1 o)) := by
    funext e o
    unfold refH2
    rw [refLin128_apply, a1]
  have a2 : (fun e o => refRelu (F := Ideal) (refNorm (F := Ideal) (refH2 (F := Ideal) x ei w1 b1 g1 be1 w2 b2) g2 be2) (ix2 e o))
      = Cert.Spec.actR (Cert.Spec.lin (K := 128) (Cert.Spec.actR (Cert.Spec.lin (K := 256)
          (fun e k => refEf (F := Ideal) x ei (ix2 e k)) (fun o k => w1 (ix2 o k)) (fun o => b1 (ix1 o)))
          (fun o => g1 (ix1 o)) (fun o => be1 (ix1 o))) (fun o k => w2 (ix2 o k)) (fun o => b2 (ix1 o)))
          (fun o => g2 (ix1 o)) (fun o => be2 (ix1 o)) := by
    funext e o
    rw [refAct_apply, h2]
  unfold refOut Cert.Spec.GR
  rw [colAsVec_apply, refLin1_apply, a2]

end Cert.ReferenceIdeal.HandV

end
-- ==== Proof.RefEfLink.lean ====
import proofs.«121905_j68624987455985_1_alg».proof.Proof.RefOut
import proofs.«121905_j68624987455985_1_alg».proof.Proof.KIEf

noncomputable section

namespace Cert.ReferenceIdeal.HandV

open Idealize.ShloMosaic

theorem refWrap_eq_wrapIdx (r : Vec Ideal Cert.ReferenceIdeal.S600000 .i32) :
    Cert.ReferenceIdeal.Hand.refWrap (F := Ideal) r = Cert.KernelIdeal.HandV.wrapIdx r := rfl

theorem refIdx0_eq_edgeIdx0 (ei : Vec Ideal Cert.ReferenceIdeal.S2x600000 .i32) :
    Cert.ReferenceIdeal.Hand.refIdx0 (F := Ideal) ei = Cert.KernelIdeal.HandV.edgeIdx0 ei := rfl

theorem refIdx1_eq_edgeIdx1 (ei : Vec Ideal Cert.ReferenceIdeal.S2x600000 .i32) :
    Cert.ReferenceIdeal.Hand.refIdx1 (F := Ideal) ei = Cert.KernelIdeal.HandV.edgeIdx1 ei := rfl

theorem refEf_eq_efOf (x : Vec Ideal Cert.ReferenceIdeal.S50000x128 .f32)
    (ei : Vec Ideal Cert.ReferenceIdeal.S2x600000 .i32) :
    Cert.ReferenceIdeal.Hand.refEf (F := Ideal) x ei = Cert.KernelIdeal.HandV.efOf x ei := rfl

end Cert.ReferenceIdeal.HandV

end
-- ==== Proof.LibERealSums.lean ====
import Mathlib.Data.EReal.Operations
import Mathlib.Algebra.BigOperators.Group.Finset.Basic
import Mathlib.Algebra.BigOperators.Ring.Finset
import Mathlib.Data.Finset.Fold
import Mathlib.Tactic.Ring

namespace Cert.ERealSums

theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.Algebra.lean ====
import proofs.«121905_j68624987455985_1_alg».proof.Proof.Spec
import proofs.«121905_j68624987455985_1_alg».proof.Proof.LibERealSums
import Mathlib.Tactic.Ring
import Mathlib.Tactic.Positivity
import Mathlib.Tactic.NormNum

noncomputable section

open scoped BigOperators

namespace Cert.Spec

open Idealize.ShloMosaic Cert.ERealSums

theorem nRows_eq : nRows = ((600000 : ℝ) : EReal) := by
  unfold nRows
  simp [Ideal.ofBits, Ideal.ieee, -EReal.coe_mul]; norm_num

def epsR : ℝ := 10995116 * (2 : ℝ) ^ (-40 : ℤ)

theorem epsR_pos : 0 < epsR := by unfold epsR; positivity

theorem eps_eq : eps = (epsR : EReal) := by
  unfold eps epsR
  simp [Ideal.ofBits, Ideal.ieee, -EReal.coe_mul]

theorem fzero_eq : fzero = ((0 : ℝ) : EReal) := by
  unfold fzero
  simp [Ideal.ofBits, Ideal.ieee]

theorem coe_max (x y : ℝ) : ((max x y : ℝ) : EReal) = max (x : EReal) (y : EReal) :=
  EReal.coe_strictMono.monotone.map_max

def muR (a : Fin 600000 → Fin 128 → ℝ) (o : Fin 128) : ℝ := (∑ e, a e o) * (1 / 600000)

def cvarR (a : Fin 600000 → Fin 128 → ℝ) (o : Fin 128) : ℝ :=
  (∑ e, (a e o - muR a o) * (a e o - muR a o)) * (1 / 600000)

def rstdR (a : Fin 600000 → Fin 128 → ℝ) (o : Fin 128) : ℝ := (Real.sqrt (cvarR a o + epsR))⁻¹

def bnR (a : Fin 600000 → Fin 128 → ℝ) (γ β : Fin 128 → ℝ) (e : Fin 600000) (o : Fin 128) : ℝ :=
  max ((a e o - muR a o) * rstdR a o * γ o + β o) 0

theorem raw_eq_centred (a : Fin 600000 → Fin 128 → ℝ) (o : Fin 128) :
    (∑ e, a e o * a e o) * (1 / 600000) - muR a o * muR a o = cvarR a o := by
  unfold cvarR
  have hsq : ∀ e, (a e o - muR a o) * (a e o - muR a o)
      = a e o * a e o - 2 * muR a o * a e o + muR a o * muR a o := fun e => by ring
  rw [Finset.sum_congr rfl (fun e _ => hsq e), Finset.sum_add_distrib, Finset.sum_sub_distrib,
    Finset.sum_const, Finset.card_univ, Fintype.card_fin, nsmul_eq_mul, ← Finset.mul_sum]
  unfold muR
  push_cast
  ring

theorem cvarR_nonneg (a : Fin 600000 → Fin 128 → ℝ) (o : Fin 128) : 0 ≤ cvarR a o := by
  unfold cvarR
  exact mul_nonneg (Finset.sum_nonneg fun e _ => mul_self_nonneg _) (by norm_num)

theorem rsqrt_cvarR (a : Fin 600000 → Fin 128 → ℝ) (o : Fin 128) :
    Ideal.rsqrt ((cvarR a o : EReal) + eps) = (rstdR a o : EReal) := by
  have hpos : 0 < cvarR a o + epsR := add_pos_of_nonneg_of_pos (cvarR_nonneg a o) epsR_pos
  unfold rstdR
  rw [eps_eq, ← EReal.coe_add, Ideal.rsqrt_coe, if_neg (not_lt.mpr hpos.le), if_neg hpos.ne']

section Layer
variable {h : Fin 600000 → Fin 128 → EReal} {a : Fin 600000 → Fin 128 → ℝ}
  {g be : Fin 128 → EReal} {γ β : Fin 128 → ℝ}

theorem mean_coe (hh : ∀ e o, h e o = (a e o : EReal)) (o : Fin 128) : mean h o = (muR a o : EReal) := by
  unfold mean colSum muR
  rw [nRows_eq, Ideal.div_coe (by norm_num)]
  simp only [hh]
  rw [← coe_finset_sum, ← EReal.coe_mul]

theorem varK_coe (hh : ∀ e o, h e o = (a e o : EReal)) (o : Fin 128) : varK h o = (cvarR a o : EReal) := by
  rw [← raw_eq_centred]
  unfold varK colSumSq
  rw [mean_coe hh, nRows_eq, Ideal.div_coe (by norm_num)]
  simp only [hh, ← EReal.coe_mul]
  rw [← coe_finset_sum, ← EReal.coe_mul, ← EReal.coe_sub]

theorem varR_coe (hh : ∀ e o, h e o = (a e o : EReal)) (o : Fin 128) : varR h o = (cvarR a o : EReal) := by
  unfold varR cvarR
  rw [mean_coe hh, nRows_eq, Ideal.div_coe (by norm_num)]
  simp only [hh, ← EReal.coe_sub, ← EReal.coe_mul]
  rw [← coe_finset_sum, ← EReal.coe_mul]

theorem actR_coe (hh : ∀ e o, h e o = (a e o : EReal)) (hg : ∀ o, g o = (γ o : EReal))
    (hbe : ∀ o, be o = (β o : EReal)) (e : Fin 600000) (o : Fin 128) :
    actR h g be e o = (bnR a γ β e o : EReal) := by
  unfold actR bnR
  rw [mean_coe hh, varR_coe hh, rsqrt_cvarR, hh, hg, hbe, fzero_eq, ← EReal.coe_sub, ← EReal.coe_mul,
    ← EReal.coe_mul, ← EReal.coe_add, ← coe_max]

theorem actK_coe (hh : ∀ e o, h e o = (a e o : EReal)) (hg : ∀ o, g o = (γ o : EReal))
    (hbe : ∀ o, be o = (β o : EReal)) (e : Fin 600000) (o : Fin 128) :
    actK h g be e o = (bnR a γ β e o : EReal) := by
  unfold actK shiftK scaleK bnR
  rw [mean_coe hh, varK_coe hh, rsqrt_cvarR, hh, hg, hbe, fzero_eq]
  simp only [← EReal.coe_mul, ← EReal.coe_sub, ← EReal.coe_add]
  rw [← coe_max]
  exact congrArg (fun t : ℝ => ((max t 0 : ℝ) : EReal)) (by ring)

end Layer

theorem actK_eq_actR {h : Fin 600000 → Fin 128 → EReal} {g be : Fin 128 → EReal}
    (hh : ∀ e o, ∃ r : ℝ, h e o = (r : EReal)) (hg : ∀ o, ∃ r : ℝ, g o = (r : EReal))
    (hbe : ∀ o, ∃ r : ℝ, be o = (r : EReal)) : actK h g be = actR h g be := by
  choose a ha using hh
  choose γ hγ using hg
  choose β hβ using hbe
  funext e o
  rw [actK_coe ha hγ hβ, actR_coe ha hγ hβ]

theorem actR_real {h : Fin 600000 → Fin 128 → EReal} {g be : Fin 128 → EReal}
    (hh : ∀ e o, ∃ r : ℝ, h e o = (r : EReal)) (hg : ∀ o, ∃ r : ℝ, g o = (r : EReal))
    (hbe : ∀ o, ∃ r : ℝ, be o = (r : EReal)) (e : Fin 600000) (o : Fin 128) :
    ∃ r : ℝ, actR h g be e o = (r : EReal) := by
  choose a ha using hh
  choose γ hγ using hg
  choose β hβ using hbe
  exact ⟨_, actR_coe ha hγ hβ e o⟩

theorem lin_real {K : Nat} {x : Fin 600000 → Fin K → EReal} {w : Fin 128 → Fin K → EReal} {b : Fin 128 → EReal}
    (hx : ∀ e k, ∃ r : ℝ, x e k = (r : EReal)) (hw : ∀ o k, ∃ r : ℝ, w o k = (r : EReal))
    (hb : ∀ o, ∃ r : ℝ, b o = (r : EReal)) (e : Fin 600000) (o : Fin 128) :
    ∃ r : ℝ, lin x w b e o = (r : EReal) := by
  unfold lin
  obtain ⟨s, hs⟩ : ∃ s : ℝ, ∑ k : Fin K, x e k * w o k = (s : EReal) :=
    exists_real_sum_mul Finset.univ _ _ (hx e) (hw o)
  obtain ⟨t, ht⟩ := hb o
  exact ⟨s + t, by rw [hs, ht, EReal.coe_add]⟩

theorem GK_eq_GR (ef : Fin 600000 → Fin 256 → EReal) (W1 : Fin 128 → Fin 256 → EReal) (b1 g1 be1 : Fin 128 → EReal)
    (W2 : Fin 128 → Fin 128 → EReal) (b2 g2 be2 : Fin 128 → EReal) (W3 : Fin 128 → EReal) (b3 : EReal)
    (hef : ∀ e k, ∃ r : ℝ, ef e k = (r : EReal)) (hW1 : ∀ o k, ∃ r : ℝ, W1 o k = (r : EReal))
    (hb1 : ∀ o, ∃ r : ℝ, b1 o = (r : EReal)) (hg1 : ∀ o, ∃ r : ℝ, g1 o = (r : EReal))
    (hbe1 : ∀ o, ∃ r : ℝ, be1 o = (r : EReal)) (hW2 : ∀ o k, ∃ r : ℝ, W2 o k = (r : EReal))
    (hb2 : ∀ o, ∃ r : ℝ, b2 o = (r : EReal)) (hg2 : ∀ o, ∃ r : ℝ, g2 o = (r : EReal))
    (hbe2 : ∀ o, ∃ r : ℝ, be2 o = (r : EReal)) :
    GK ef W1 b1 g1 be1 W2 b2 g2 be2 W3 b3 = GR ef W1 b1 g1 be1 W2 b2 g2 be2 W3 b3 := by
  unfold GK GR
  have h1 := lin_real hef hW1 hb1
  rw [actK_eq_actR h1 hg1 hbe1]
  have h2 := lin_real (actR_real h1 hg1 hbe1) hW2 hb2
  rw [actK_eq_actR h2 hg2 hbe2]

end Cert.Spec

end
-- ==== Proof.Finite.lean ====
import proofs.«121905_j68624987455985_1_alg».proof.Defs
import Idealize.ShloMosaic.Lib.ReduceAll
import Idealize.ShloMosaic.Lib.ValueIdx

noncomputable section

namespace Cert.Hand

open Idealize.ShloMosaic Idealize.SL.Sem

theorem ofBits_inf : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_cmp (x : EReal)
    (h : Ideal.cmp .olt (max x (-x)) (Ideal.ofBits .f32 0x7F800000#32) = 1#1) : ∃ r : ℝ, x = (r : EReal) := by
  rw [ofBits_inf] at h
  by_cases hlt : max x (-x) < ⊤
  · exact real_of_abs_lt_top x hlt
  · simp [Ideal.cmp, hlt] at h

instance : Subsingleton Cert.Pre_finite_inputs.S_.Idx := ⟨fun a b => funext fun d => d.elim0⟩

theorem entries_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i : s.Idx, ∃ r : ℝ, x i = (r : EReal) := by
  intro i
  have e := Host.reduce_andi_all _ _ hr hu ValueIdx.ix0 h i
  exact real_of_cmp (x i) e

theorem and_at {s : Shape} (a b : IVec s 1) (i : s.Idx) (h : andi a b i = 1#1) : a i = 1#1 ∧ b i = 1#1 :=
  IntOp.andi_eq_one.1 h

section
variable [hF : Cert.Pre_finite_inputs.Facts]
open Cert.Pre_finite_inputs

theorem fn_real (a0 : FVec Ideal S50000x128 .f32) (a1 : IVec S2x600000 32) (a2 : FVec Ideal S128x256 .f32) (a3 : FVec Ideal S128 .f32) (a4 : FVec Ideal S128 .f32) (a5 : FVec Ideal S128 .f32) (a6 : FVec Ideal S128x128 .f32) (a7 : FVec Ideal S128 .f32) (a8 : FVec Ideal S128 .f32) (a9 : FVec Ideal S128 .f32) (a10 : FVec Ideal S1x128 .f32) (a11 : FVec Ideal S1 .f32)
    (h : fn (F := Ideal) a0 a1 a2 a3 a4 a5 a6 a7 a8 a9 a10 a11 = fun _ => 1#1) :
    (∀ i, ∃ r : ℝ, a0 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal)) := by
  have h0 := congrFun h ValueIdx.ix0
  dsimp only [fn, fn_part1, fn_part2, fn_part3] at h0
  obtain ⟨h0, h11⟩ := and_at _ _ _ h0
  obtain ⟨h0, h10⟩ := and_at _ _ _ h0
  obtain ⟨h0, h9⟩ := and_at _ _ _ h0
  obtain ⟨h0, h8⟩ := and_at _ _ _ h0
  obtain ⟨h0, h7⟩ := and_at _ _ _ h0
  obtain ⟨h0, h6⟩ := and_at _ _ _ h0
  obtain ⟨h0, h5⟩ := and_at _ _ _ h0
  obtain ⟨h0, h4⟩ := and_at _ _ _ h0
  obtain ⟨h0, h3⟩ := and_at _ _ _ h0
  obtain ⟨h0, h2⟩ := and_at _ _ _ h0
  exact ⟨entries_real a0 _ _ _ h0,
    entries_real a2 _ _ _ h2,
    entries_real a3 _ _ _ h3,
    entries_real a4 _ _ _ h4,
    entries_real a5 _ _ _ h5,
    entries_real a6 _ _ _ h6,
    entries_real a7 _ _ _ h7,
    entries_real a8 _ _ _ h8,
    entries_real a9 _ _ _ h9,
    entries_real a10 _ _ _ h10,
    entries_real a11 _ _ _ h11⟩

end

end Cert.Hand

end
-- ==== Proof.lean ====
import proofs.«121905_j68624987455985_1_alg».proof.Proof.Gen.Kernel
import proofs.«121905_j68624987455985_1_alg».proof.Proof.Gen.KernelIdeal
import proofs.«121905_j68624987455985_1_alg».proof.Proof.Gen.ReferenceIdeal
import proofs.«121905_j68624987455985_1_alg».proof.Proof.Gen.Pre_finite_inputs
import proofs.«121905_j68624987455985_1_alg».proof.Proof.KIRun
import proofs.«121905_j68624987455985_1_alg».proof.Proof.KIValue
import proofs.«121905_j68624987455985_1_alg».proof.Proof.KIHost0
import proofs.«121905_j68624987455985_1_alg».proof.Proof.RefRun
import proofs.«121905_j68624987455985_1_alg».proof.Proof.RefStages
import proofs.«121905_j68624987455985_1_alg».proof.Proof.RefEfLink
import proofs.«121905_j68624987455985_1_alg».proof.Proof.Algebra
import proofs.«121905_j68624987455985_1_alg».proof.Proof.Finite
import proofs.«121905_j68624987455985_1_alg».proof.Defs

noncomputable section

namespace Cert.Proof

open Idealize.ShloMosaic Idealize.SL.Sem Idealize.ShloMosaic.ValueIdx
open Cert.KernelIdeal Cert.KernelIdeal.Hand

open Lean Elab Tactic in
/-- Closes the goal with `e`, whose statement is the goal once the definitions on both sides are unfolded. -/
elab "exact_by_unfolding " e:term : tactic => withMainContext do
  (← getMainGoal).assign (← elabTerm e none)

/-- Idealizing rewrote nothing: `Kernel` is `KernelIdeal` definition by definition, so its frame is the general one at `Bits`. -/
theorem frame_k : Cert.frame_Kernel := by
  intro m ρ _
  exact_by_unfolding Hand.frame (F := Bits) m ρ
theorem frame_ki : Cert.frame_KernelIdeal := fun m ρ _ => Hand.frame (F := Ideal) m ρ
theorem frame_ri : Cert.frame_ReferenceIdeal := fun m ρ _ => Cert.ReferenceIdeal.Hand.frame (F := Ideal) m ρ

/-- The reference's result term over the argument arrays a memory holds on core `c`. -/
abbrev refOf (m : (ℓ : Loc nD τ sig) → Buf (Elt Ideal) ℓ) (c : Dev nD) :=
  Cert.ReferenceIdeal.Hand.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- Row by row the kernel's chain of layers and the reference's are one function of real arguments. -/
theorem kernel_result (m : (ℓ : Loc nD τ sig) → Buf (Elt Ideal) ℓ) (ρ : Dev nD → PrngReg) (hpre : Cert.Pre_KernelIdeal m)
    (c : Dev nD) : W7 (F := Ideal) m ρ c (Proc.devRef .tc main_v69) = refOf m c := by
  funext j
  obtain ⟨e, rfl⟩ : ∃ e : Fin 600000, j = ix1 e := ⟨j 0, eq_ix1 j⟩
  obtain ⟨f0, f2, f3, f4, f5, f6, f7, f8, f9, -⟩ := Cert.Hand.fn_real _ _ _ _ _ _ _ _ _ _ _ _ (hpre c)
  unfold refOf
  rw [Cert.ReferenceIdeal.HandV.refOut_apply, Cert.ReferenceIdeal.HandV.refEf_eq_efOf,
    ← Cert.Spec.GK_eq_GR _ _ _ _ _ _ _ _ _ _ _
      (fun e k => HandV.efOf_real _ _ f0 (ix2 e k))
      (fun o k => f2 (ix2 o k))
      (fun o => f3 (ix1 o))
      (fun o => f4 (ix1 o))
      (fun o => f5 (ix1 o))
      (fun o k => f6 (ix2 o k))
      (fun o => f7 (ix1 o))
      (fun o => f8 (ix1 o))
      (fun o => f9 (ix1 o))]
  exact HandV.result_eq m ρ c e

theorem algebraic : Cert.algebraic_KernelIdeal_ReferenceIdeal := by
  intro m ρ m' ρ' hpre hagree
  refine ⟨refOf m, ?_, ?_⟩
  · exact (θ_run (Cert.KernelIdeal.defs (F := Ideal)) _ _).mono (fun r h c =>
      ⟨(h c _ (mem_uc main_v69 (by decide))).trans (kernel_result m ρ hpre c), kept m ρ c r.2.mem (h c)⟩)
      (run_all (F := Ideal) m ρ)
  · refine (θ_run (Cert.ReferenceIdeal.defs (F := Ideal)) _ _).mono (fun r h c => ⟨(h c).1.trans ?_, (h c).2⟩)
      (Cert.ReferenceIdeal.Hand.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
